-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x2048 : Shape := ⟨3, ![32, 256, 2048]⟩
abbrev S32x256x256 : Shape := ⟨3, ![32, 256, 256]⟩
abbrev S_ : Shape := ⟨0, ![]⟩

class Facts : Prop where
  bcast_S_S32x256x2048 : S_.BroadcastsInDim S32x256x2048 (![] : Fin 0 → Fin S32x256x2048.rank)
  reducesTo_S32x256x2048_S_d0_1_2 : S32x256x2048.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn_part1 {F : FTy → Type} [FloatOps F] (main_arg4 : FVec F S32x256x256 .f32) (main_v13 : IVec S_ 1) (main_v16 : IVec S32x256x2048 1) : IVec S_ 1 :=
  let main_c_5 : IVec S_ 1 := constantI S_ 1 1#1
  let main_v17 : IVec S_ 1 := (fun x v => Host.reduce IntOp.andi x v reducesTo_S32x256x2048_S_d0_1_2 h_S_) main_v16 main_c_5
  let main_v18 : IVec S_ 1 := andi main_v13 main_v17
  let main_v19 : FVec F S32x256x256 .f32 := Host.absf main_arg4
  let main_cst_6 : FVec F S_ .f32 := constant S_ .f32 0x7F800000#32
  let main_v20 : FVec F S32x256x256 .f32 := broadcastInDim S32x256x256 ![] bcast_S_S32x256x256 main_cst_6
  let main_v21 : IVec S32x256x256 1 := cmpf .olt main_v19 main_v20
  let main_c_7 : IVec S_ 1 := constantI S_ 1 1#1
  let main_v22 : IVec S_ 1 := (fun x v => Host.reduce IntOp.andi x v reducesTo_S32x256x256_S_d0_1_2 h_S_) main_v21 main_c_7
  let main_v23 : IVec S_ 1 := andi main_v18 main_v22
  main_v23

def fn {F : FTy → Type} [FloatOps F] (main_arg0 : FVec F S32x256x2048 .f32) (main_arg1 : FVec F S32x256x2048 .f32) (main_arg2 : FVec F S32x256x2048 .f32) (main_arg3 : FVec F S32x256x2048 .f32) (main_arg4 : FVec F S32x256x256 .f32) : IVec S_ 1 :=
  let main_v0 : FVec F S32x256x2048 .f32 := Host.absf main_arg0
  let main_cst : FVec F S_ .f32 := constant S_ .f32 0x7F800000#32
  let main_v1 : FVec F S32x256x2048 .f32 := broadcastInDim S32x256x2048 ![] bcast_S_S32x256x2048 main_cst
  let main_v2 : IVec S32x256x2048 1 := cmpf .olt main_v0 main_v1
  let main_c : IVec S_ 1 := constantI S_ 1 1#1
  let main_v3 : IVec S_ 1 := (fun x v => Host.reduce IntOp.andi x v reducesTo_S32x256x2048_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  let main_v9 : FVec F S32x256x2048 .f32 := Host.absf main_arg2
  let main_cst_2 : FVec F S_ .f32 := constant S_ .f32 0x7F800000#32
  let main_v10 : FVec F S32x256x2048 .f32 := broadcastInDim S32x256x2048 ![] bcast_S_S32x256x2048 main_cst_2
  let main_v11 : IVec S32x256x2048 1 := cmpf .olt main_v9 main_v10
  let main_c_3 : IVec S_ 1 := constantI S_ 1 1#1
  let main_v12 : IVec S_ 1 := (fun x v => Host.reduce IntOp.andi x v reducesTo_S32x256x2048_S_d0_1_2 h_S_) main_v11 main_c_3
  let main_v13 : IVec S_ 1 := andi main_v8 main_v12
  let main_v14 : FVec F S32x256x2048 .f32 := Host.absf main_arg3
  let main_cst_4 : FVec F S_ .f32 := constant S_ .f32 0x7F800000#32
  let main_v15 : FVec F S32x256x2048 .f32 := broadcastInDim S32x256x2048 ![] bcast_S_S32x256x2048 main_cst_4
  let main_v16 : IVec S32x256x2048 1 := cmpf .olt main_v14 main_v15
  fn_part1 (F := F) main_arg4 main_v13 main_v16
-- ==== Kernel.lean ====
abbrev S32x256x2048 : Shape := ⟨3, ![32, 256, 2048]⟩
abbrev S32x256x256 : Shape := ⟨3, ![32, 256, 256]⟩
abbrev S1x1 : Shape := ⟨2, ![1, 1]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩
abbrev S1x256x256 : Shape := ⟨3, ![1, 256, 256]⟩
abbrev S256x256 : Shape := ⟨2, ![256, 256]⟩

abbrev nBuf : Space → Nat
  | .hbm => 19
  | .vmem => 18
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S32x256x2048, .f32⟩
  | .hbm, ⟨3, _⟩ => ⟨S32x256x2048, .f32⟩
  | .hbm, ⟨4, _⟩ => ⟨S32x256x256, .f32⟩
  | .hbm, ⟨5, _⟩ => ⟨S1x1, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x256x2048, .f32⟩
  | .local _ .vmem, ⟨13, _⟩ => ⟨S1x256x2048, .f32⟩
  | .local _ .vmem, ⟨14, _⟩ => ⟨S1x256x256, .f32⟩
  | .local _ .vmem, ⟨15, _⟩ => ⟨S1x256x256, .f32⟩
  | .local _ .vmem, ⟨16, _⟩ => ⟨S1x1, .f32⟩
  | .local _ .vmem, ⟨17, _⟩ => ⟨S1x1, .f32⟩
  | _, _ => ⟨S32x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v35 : BitVec 1 := Scalar.cmpi .eq arg0 c31_i32
  let v36 : BitVec 32 := Scalar.extui v35
  let c0_i32_24 : BitVec 32 := 0#32
  let v37 : BitVec 1 := Scalar.cmpi .ne v36 c0_i32_24
  v37

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32_18 : BitVec 32 := 0#32
  let v40 : BitVec 1 := Scalar.cmpi .ne v39 c0_i32_18
  v40

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [1] S256
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S32x256x2048.size a
  hwx0_0 : ∀ i : grid0.Coords, EltTy.bits .f32 = 32 ∨ (Rect.block (s := S32x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S32x256x2048.size a
  hwx0_1 : ∀ i : grid0.Coords, EltTy.bits .f32 = 32 ∨ (Rect.block (s := S32x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x256x2048.size a
  hwx0_2 : ∀ i : grid0.Coords, EltTy.bits .f32 = 32 ∨ (Rect.block (s := S32x256x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S32x256x2048.size a
  hwx0_3 : ∀ i : grid0.Coords, EltTy.bits .f32 = 32 ∨ (Rect.block (s := S32x256x2048) S1x256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S32x256x2048.size a
  hwx1_0 : ∀ i : grid1.Coords, EltTy.bits .f32 = 32 ∨ (Rect.block (s := S32x256x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x256.size a ≤ S32x256x256.size a
  hwx1_1 : ∀ i : grid1.Coords, EltTy.bits .f32 = 32 ∨ (Rect.block (s := S32x256x256) S1x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S32x256x2048 : Shape := ⟨3, ![32, 256, 2048]⟩
abbrev S32x256x256 : Shape := ⟨3, ![32, 256, 256]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S32x256x2048, .f32⟩
  | .hbm, ⟨1, _⟩ => ⟨S32x256x2048, .f32⟩
  | .hbm, ⟨2, _⟩ => ⟨S32x256x2048, .f32⟩
  | .hbm, ⟨3, _⟩ => ⟨S32x256x2048, .f32⟩
  | .hbm, ⟨4, _⟩ => ⟨S32x256x256, .f32⟩
  | .hbm, ⟨5, _⟩ => ⟨S32x256x2048, .f32⟩
  | .hbm, ⟨6, _⟩ => ⟨S32x256x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x256x2048, .f32⟩
  | .hbm, ⟨12, _⟩ => ⟨S32x256x2048, .f32⟩
  | .hbm, ⟨13, _⟩ => ⟨S_, .f32⟩
  | .hbm, ⟨14, _⟩ => ⟨S32x256x2048, .f32⟩
  | .hbm, ⟨15, _⟩ => ⟨S32x256x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x256x2048, .f32⟩
  | .hbm, ⟨21, _⟩ => ⟨S32x256x2048, .f32⟩
  | .hbm, ⟨22, _⟩ => ⟨S32x256x256, .f32⟩
  | .hbm, ⟨23, _⟩ => ⟨S32x256x256, .f32⟩
  | .hbm, ⟨24, _⟩ => ⟨S32x256x256, .f32⟩
  | .hbm, ⟨25, _⟩ => ⟨S_, .f32⟩
  | .hbm, ⟨26, _⟩ => ⟨S32x256x256, .f32⟩
  | .hbm, ⟨27, _⟩ => ⟨S32x256x256, .f32⟩
  | .hbm, ⟨28, _⟩ => ⟨S32x256x256, .f32⟩
  | .hbm, ⟨29, _⟩ => ⟨S32x256x256, .f32⟩
  | .hbm, ⟨30, _⟩ => ⟨S32x256x256, .f32⟩
  | .hbm, ⟨31, _⟩ => ⟨S_, .f32⟩
  | .hbm, ⟨32, _⟩ => ⟨S32x256x256, .f32⟩
  | .hbm, ⟨33, _⟩ => ⟨S32x256x256, .f32⟩
  | .hbm, ⟨34, _⟩ => ⟨S32x256x256, .f32⟩
  | .hbm, ⟨35, _⟩ => ⟨S32x256x256, .f32⟩
  | .hbm, ⟨36, _⟩ => ⟨S32x256x256, .f32⟩
  | .hbm, ⟨37, _⟩ => ⟨S_, .f32⟩
  | .hbm, ⟨38, _⟩ => ⟨S32x256x256, .f32⟩
  | .hbm, ⟨39, _⟩ => ⟨S32x256x256, .f32⟩
  | .hbm, ⟨40, _⟩ => ⟨S32x256x256, .f32⟩
  | .hbm, ⟨41, _⟩ => ⟨S32x256x256, .f32⟩
  | .hbm, ⟨42, _⟩ => ⟨S32x256x256, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S32x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  reducesTo_S32x256x2048_S_d0_1_2 : S32x256x2048.ReducesTo [0, 1, 2] S_
  h_S_ : 0 < S_.numel
  bcast_S_S32x256x2048 : S_.BroadcastsInDim S32x256x2048 (![] : Fin 0 → Fin S32x256x2048.rank)
  bcast_S_S32x256x256 : S_.BroadcastsInDim S32x256x256 (![] : Fin 0 → Fin S32x256x256.rank)
  reducesTo_S32x256x256_S_d0_1_2 : S32x256x256.ReducesTo [0, 1, 2] S_
  dot_S32x256x2048_S32x256x2048_S32x256x256_2_2_1_1_0_0_wf : DotDims.WF S32x256x2048 S32x256x2048 S32x256x256 [2] [2] [1] [1] [0] [0]

variable [Facts₀]

def dot_S32x256x2048_S32x256x2048_S32x256x256_2_2_1_1_0_0 : DotDims S32x256x2048 S32x256x2048 S32x256x256 where
  lhsContracting := [2]
  rhsContracting := [2]
  lhsNonContracting := [1]
  rhsNonContracting := [1]
  lhsBatch := [0]
  rhsBatch := [0]
  wf := dot_S32x256x2048_S32x256x2048_S32x256x256_2_2_1_1_0_0_wf

class Facts : Prop extends Facts₀ where

variable [Facts]
-- ==== Proof.LibRunningSum.lean ====
import Mathlib.Algebra.BigOperators.Fin

open scoped BigOperators

namespace Cert.Lib.RunningSum

variable {α : Type*} {N : ℕ}

/-- What the steps `f 0`, …, `f n` make of `z`. -/
def accOf (f : Fin N → α → α) (z : α) : (n : ℕ) → n < N → α
  | 0, h => f ⟨0, h⟩ z
  | n + 1, h => f ⟨n + 1, h⟩ (accOf f z n (Nat.lt_of_succ_lt h))

/-- Step `t` applied to `z` when it is the first, else to what step `t - 1` left, leaves `accOf` at `t`. -/
theorem accOf_step (f : Fin N → α → α) (z : α) (t : Fin N) (p : Prop) [Decidable p] (hp : p ↔ t.val = 0) (d : α)
    (hd : ∀ k h, k + 1 = t.val → d = accOf f z k h) : f t (if p then z else d) = accOf f z t.val t.isLt := by
  obtain ⟨n, hn⟩ := t
  cases n with
  | zero => rw [if_pos (hp.mpr rfl)]; rfl
  | succ n => rw [if_neg fun h => Nat.succ_ne_zero n (hp.mp h), hd n _ rfl]; rfl

theorem accOf_at (f : Fin N → α → α) (z : α) (n : ℕ) (hn : n < N) (k : ℕ) (h : k < N) (hk : k + 1 = n + 1) :
    accOf f z n hn = accOf f z k h := by
  cases Nat.succ.inj hk; rfl

/-- If, read through `ev`, `z` is zero and step `t` adds `g t`, then `accOf` after step `n` reads as the sum of the first `n + 1` terms. -/
theorem accOf_sum {M : Type*} [AddCommMonoid M] (f : Fin N → α → α) (z : α) (ev : α → M) (g : Fin N → M) (hz : ev z = 0)
    (hf : ∀ t a, ev (f t a) = ev a + g t) :
    ∀ (n : ℕ) (h : n < N), ev (accOf f z n h) = ∑ i : Fin (n + 1), g ⟨i.val, lt_of_lt_of_le i.isLt h⟩
  | 0, h => (hf _ _).trans (by rw [hz, zero_add, Fin.sum_univ_one]; rfl)
  | n + 1, h => (hf _ _).trans ((congrArg (· + g ⟨n + 1, h⟩) (accOf_sum f z ev g hz hf n (Nat.lt_of_succ_lt h))).trans
      (Fin.sum_univ_castSucc fun i : Fin (n + 1 + 1) => g ⟨i.val, lt_of_lt_of_le i.isLt h⟩).symm)

end Cert.Lib.RunningSum
-- ==== Proof.WordMagRuns.lean ====
import proofs.«116411_j74517682586316_1_alg».proof.Proof.Gen.Kernel.Launch
import proofs.«116411_j74517682586316_1_alg».proof.Proof.Gen.Kernel.Skeleton
import proofs.«116411_j74517682586316_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«116411_j74517682586316_1_alg».proof.Proof.LibRunningSum

set_option maxRecDepth 16384

noncomputable section

namespace Cert.Kernel.Mag

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
abbrev condLast (i : grid0.Coords) : Prop := k0_cond2 i = 1#1
theorem hcondLast : ∀ t : Fin cfg0.N, condLast (grid0.coords t) ↔ t.val % 32 = 31 :=
  (by decide +kernel : ∀ t : Fin grid0.N, condLast (grid0.coords t) ↔ t.val % 32 = 31)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel
theorem idleAt_5 : ∀ t : Fin cfg0.N, ¬condLast (grid0.coords t) → cfg0.idle 5 (grid0.coords t) = true := by decide +kernel
theorem noFlush_5 : ∀ t : Fin cfg0.N, ¬condLast (grid0.coords t) → (cfg0.win 5).flush t = false := by decide +kernel
theorem liveAt_5 : ∀ t : Fin cfg0.N, condLast (grid0.coords t) → cfg0.idle 5 (grid0.coords t) = false := by decide +kernel

abbrev ms_0 (t : Fin cfg0.N) : Memref sig .tc .vmem S1x256x2048 .f32 := win0_0.stage (cfg0.slots t 0)
abbrev ms_1 (t : Fin cfg0.N) : Memref sig .tc .vmem S1x256x2048 .f32 := win0_1.stage (cfg0.slots t 1)
abbrev ms_2 (t : Fin cfg0.N) : Memref sig .tc .vmem S1x256x2048 .f32 := win0_2.stage (cfg0.slots t 2)
abbrev ms_3 (t : Fin cfg0.N) : Memref sig .tc .vmem S1x256x2048 .f32 := win0_3.stage (cfg0.slots t 3)
abbrev ms_4 (t : Fin cfg0.N) : Memref sig .tc .vmem S1x1 .f32 := win0_4.stage (cfg0.slots t 4)
abbrev ms_5 (t : Fin cfg0.N) : Memref sig .tc .vmem S1x1 .f32 := win0_5.stage (cfg0.slots t 5)
abbrev scM7 : Memref sig .tc .vmem S1x1 .f32 := Memref.whole cc0_scratch0
abbrev scM8 : Memref sig .tc .vmem S1x1 .f32 := Memref.whole cc0_scratch1

theorem hz2 : (![0, 0] : Fin 2 → Nat) = fun _ => 0 := funext fun a => by fin_cases a <;> rfl
theorem hz3 : (![0, 0, 0] : Fin 3 → Nat) = fun _ => 0 := funext fun a => by fin_cases a <;> rfl

section Runs

variable (c : Dev nD) (i : grid0.Coords) (arg1 : Memref sig .tc .vmem S1x256x2048 .f32) (harg1 : arg1.IsWhole)
  (arg2 : Memref sig .tc .vmem S1x256x2048 .f32) (harg2 : arg2.IsWhole) (arg3 : Memref sig .tc .vmem S1x256x2048 .f32) (harg3 : arg3.IsWhole)
  (arg4 : Memref sig .tc .vmem S1x256x2048 .f32) (harg4 : arg4.IsWhole) (arg5 : Memref sig .tc .vmem S1x1 .f32) (harg5 : arg5.IsWhole)
  (arg6 : Memref sig .tc .vmem S1x1 .f32) (harg6 : arg6.IsWhole) (arg7 : Memref sig .tc .vmem S1x1 .f32) (harg7 : arg7.IsWhole)
  (arg8 : Memref sig .tc .vmem S1x1 .f32) (harg8 : arg8.IsWhole) (x0 x1 x2 x3 : Vec F S1x256x2048 .f32)

set_option maxHeartbeats 4000000 in
/-- At any grid point each accumulator (zeroed first at the first point) gains its tile's sum; at the last each output gets its own over the count. -/
theorem run (hne : ¬(condFirst i ∧ condLast i)) (xi4 xi5 xs7 xs8 a7 a8 : Vec F S1x1 .f32)
    (ha7 : k0_pay6 x0 x1 (if condFirst i then k0_pay4 else xs7) = a7)
    (ha8 : k0_pay1 (k0_pay7 x2 x3 (if condFirst i then k0_pay5 else xs8)) = a8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs7 ∗ owns (c : Thread nD τ) arg8 fullShare xs8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if condLast i then k0_pay2 a7 else xi4) ∗ owns (c : Thread nD τ) arg6 fullShare (if condLast i then k0_pay3 a8 else xi5) ∗ owns (c : Thread nD τ) arg7 fullShare a7 ∗ owns (c : Thread nD τ) arg8 fullShare a8) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  subst ha7 ha8
  by_cases hc0 : condFirst i <;> by_cases hc1 : condLast i
  · exact absurd ⟨hc0, hc1⟩ hne
  all_goals
    first | rw [if_pos hc0, if_pos hc0] | rw [if_neg hc0, if_neg hc0]
    first | rw [if_pos hc1, if_pos hc1] | rw [if_neg hc1, if_neg hc1]
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs7, %hfs7, HS7⟩, ⟨%fs8, %hfs8, HS8⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs7; obtain rfl := harg8.eq_unread hfs8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    iexists _; isplitr; swap; iexact H4
    rotate_left
    isplitl [H5]
    iexists _; isplitr; swap; iexact H5
    rotate_left
    isplitl [HS7]
    iexists _; isplitr; swap; iexact HS7
    rotate_left
    iexists _; isplitr; swap; iexact HS8
    all_goals ipureintro
    all_goals first
      | exact harg5.read_unread _
      | exact harg6.read_unread _
      | refine (View.read_writes_eq_canon _ _ _ (View.cover_of_tiledL _ S1x1.size (by sl_kernel_rfl))).trans ?_
        sl_unfold_words
        rw [View.canon_cons_unit_zero (S := S1x1) hz2]
        simp only [View.readAt_eq_ld, harg1.read_unread, harg2.read_unread, harg3.read_unread, harg4.read_unread, harg7.read_unread, harg8.read_unread, View.ld_unit_zero (S := S1x256x2048) hz3, View.ld_unit_zero (S := S1x1) hz2, View.readCov_unit_zero (S := S1x1) _ hz2]

end Runs

end Cert.Kernel.Mag

end
-- ==== Proof.WordMagFrame.lean ====
import proofs.«116411_j74517682586316_1_alg».proof.Proof.WordMagRuns

set_option maxRecDepth 16384

noncomputable section

namespace Cert.Kernel.Mag

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Lib.RunningSum

variable (V : (c : Dev nD) → (b : Ref sig .tc) → Buf (Elt F) ((c : Thread nD τ).loc b))

/-- Window `w`'s block at point `t` of the arrays `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running sums after point `n`. -/
def acc7 (c : Dev nD) : (n : ℕ) → n < cfg0.N → Vec F S1x1 .f32 :=
  accOf (fun t a => k0_pay6 (iblk V c 0 t) (iblk V c 1 t) a) k0_pay4
def acc8 (c : Dev nD) : (n : ℕ) → n < cfg0.N → Vec F S1x1 .f32 :=
  accOf (fun t a => k0_pay1 (k0_pay7 (iblk V c 2 t) (iblk V c 3 t) a)) k0_pay5

abbrev Rest (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(iprop((∃ d, owns (c : Thread nD τ) scM7 fullShare d) ∗ (∃ d, owns (c : Thread nD τ) scM8 fullShare d)) ∗ Rest c) ∗ (∃ r, prngReg c r)) := by
  unfold Pipeline.ΦA
  rw [Pipeline.scopedRest_split_of_list spec0 c [cc0_scratch0, cc0_scratch1] (by decide) (by decide)]
  simp only [scM7, scM8, owns_whole]; try rfl

/-- Before point `n` each accumulator holds its running sum after point `n - 1` (anything when `n = 0`). -/
def PhiS (c : Dev nD) (n : ℕ) : sProp 𝕄 :=
  iprop(iprop(iprop((∃ d, ⌜∀ k h, k + 1 = n → d = acc7 V c k h⌝ ∗ owns (c : Thread nD τ) scM7 fullShare d)
      ∗ (∃ d, ⌜∀ k h, k + 1 = n → d = acc8 V c k h⌝ ∗ owns (c : Thread nD τ) scM8 fullShare d)) ∗ Rest c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (acc7 V c t.val t.isLt)
    | ⟨5, _⟩ => k0_pay3 (acc8 V c t.val t.isLt)
  Φ t := PhiS V c t.val
  q _ := fullShare
  owed _ := 0

theorem A_eq (c : Dev nD) (w : Fin cfg0.W) : (dat V c).A w = V c (Pipeline.arrRef spec0 w) := rfl
theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t)

theorem leaves_in (c : Dev nD) (t : Fin cfg0.N) (w : Fin cfg0.W) (hl : cfg0.idle w (grid0.coords t) = false) :
    (dat V c).leavesExact w t = owns (c : Thread nD τ) ((cfg0.win w).stage (cfg0.slots t w)) fullShare ((dat V c).after w t) := by
  unfold Dat.leavesExact; rw [hl]

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = PhiS V c (t.val + 1) from rfl, show (dat V c).Φ t.castSucc = PhiS V c t.val from rfl,
    leaves_in V c t 0 (liveAt_0 t), leaves_in V c t 1 (liveAt_1 t), leaves_in V c t 2 (liveAt_2 t), leaves_in V c t 3 (liveAt_3 t)]
  have hne : ¬(condFirst (grid0.coords t) ∧ condLast (grid0.coords t)) := fun h => by
    have := (hcondFirst t).mp h.1; have := (hcondLast t).mp h.2; omega
  unfold PhiS
  iintro ⟨⟨⟨⟨⟨%e7, %he7, HS7⟩, ⟨%e8, %he8, HS8⟩⟩, HR⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (iblk V c 0 t) (iblk V c 1 t) (iblk V c 2 t) (iblk V c 3 t) hne
    ((dat V c).before 4 t d4) ((dat V c).before 5 t d5) e7 e8 _ _ (accOf_step _ _ t _ (hcondFirst t) e7 he7)
    (accOf_step _ _ t _ (hcondFirst t) e8 he8) Set.univ _)
  iframe
  iintro ⟨H0, H1, H2, H3, H4, H5, HS7, HS8⟩
  isplitl [HS7 HS8]
  · isplitl [HS7]
    · iexists _; isplitr; swap; · iexact HS7
      ipureintro; exact accOf_at _ _ _ _
    iexists _; isplitr; swap; · iexact HS8
    ipureintro; exact accOf_at _ _ _ _
  isplitl [H0]; · iexact H0
  isplitl [H1]; · iexact H1
  isplitl [H2]; · iexact H2
  isplitl [H3]; · iexact H3
  by_cases h1 : condLast (grid0.coords t)
  · rw [leaves_in V c t 4 (liveAt_4 t h1), leaves_in V c t 5 (liveAt_5 t h1)]; simp only [if_pos h1]
    isplitl [H4]; · iexact H4
    iexact H5
  · rw [Dat.leavesExact_idle (dat V c) 4 t (idleAt_4 t h1) (noFlush_4 t h1), Dat.leavesExact_idle (dat V c) 5 t (idleAt_5 t h1) (noFlush_5 t h1)]
    simp only [if_neg h1]
    isplitl [H4]; · iexists _; iexact H4
    iexists _; iexact H5

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 from rfl, PhiA_eq]; unfold PhiS
  iintro ⟨⟨⟨⟨%d7, HS7⟩, ⟨%d8, HS8⟩⟩, HR⟩, Hg⟩
  iframe
  isplitl [HS7]
  · iexists d7; iframe
    ipureintro; intro k h hk; omega
  iexists d8; iframe
  ipureintro; intro k h hk; omega

theorem hout (c : Dev nD) : (dat V c).Φ (Fin.last cfg0.N) ⊢ Pipeline.ΦA spec0 c := by
  rw [show (dat V c).Φ (Fin.last cfg0.N) = PhiS V c (Fin.last cfg0.N).val from rfl, PhiA_eq]; unfold PhiS
  iintro ⟨⟨⟨⟨%d7, -, HS7⟩, ⟨%d8, -, HS8⟩⟩, HR⟩, Hg⟩
  iframe
  isplitl [HS7]; · iexists d7; iexact HS7
  iexists d8; iexact HS8

end Cert.Kernel.Mag

end
-- ==== Proof.WordCohRuns.lean ====
import proofs.«116411_j74517682586316_1_alg».proof.Proof.Gen.Kernel.Launch
import proofs.«116411_j74517682586316_1_alg».proof.Proof.Gen.Kernel.Skeleton
import proofs.«116411_j74517682586316_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«116411_j74517682586316_1_alg».proof.Proof.LibRunningSum

set_option maxRecDepth 16384

noncomputable section

namespace Cert.Kernel.Coh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val = 0 :=
  (by decide +kernel : ∀ t : Fin grid1.N, condFirst (grid1.coords t) ↔ t.val = 0)
abbrev condLast (i : grid1.Coords) : Prop := k1_cond2 i = 1#1
theorem hcondLast : ∀ t : Fin cfg1.N, condLast (grid1.coords t) ↔ t.val % 32 = 31 :=
  (by decide +kernel : ∀ t : Fin grid1.N, condLast (grid1.coords t) ↔ t.val % 32 = 31)

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem liveAt_2 : ∀ t : Fin cfg1.N, condLast (grid1.coords t) → cfg1.idle 2 (grid1.coords t) = false := by decide +kernel

abbrev ms_0 (t : Fin cfg1.N) : Memref sig .tc .vmem S1x256x2048 .f32 := win1_0.stage (cfg1.slots t 0)
abbrev ms_1 (t : Fin cfg1.N) : Memref sig .tc .vmem S1x256x256 .f32 := win1_1.stage (cfg1.slots t 1)
abbrev ms_2 (t : Fin cfg1.N) : Memref sig .tc .vmem S1x1 .f32 := win1_2.stage (cfg1.slots t 2)
abbrev scM : Memref sig .tc .vmem S1x1 .f32 := Memref.whole cc1_scratch0

theorem hz2 : (![0, 0] : Fin 2 → Nat) = fun _ => 0 := funext fun a => by fin_cases a <;> rfl
theorem hz3 : (![0, 0, 0] : Fin 3 → Nat) = fun _ => 0 := funext fun a => by fin_cases a <;> rfl

section Runs

variable (c : Dev nD) (i : grid1.Coords) (arg1 : Memref sig .tc .vmem S1x256x2048 .f32) (harg1 : arg1.IsWhole)
  (arg2 : Memref sig .tc .vmem S1x256x256 .f32) (harg2 : arg2.IsWhole) (arg3 : Memref sig .tc .vmem S1x1 .f32) (harg3 : arg3.IsWhole)
  (arg4 : Memref sig .tc .vmem S1x1 .f32) (harg4 : arg4.IsWhole) (x0 : Vec F S1x256x2048 .f32) (x1 : Vec F S1x256x256 .f32)

set_option maxHeartbeats 2000000 in
/-- At any grid point the accumulator (zeroed first at the first point) gains the tile's sum; at the last the output gets it over the count. -/
theorem run (hne : ¬(condFirst i ∧ condLast i)) (xi2 xs a : Vec F S1x1 .f32)
    (ha : k1_pay1 (k1_pay4 x0 x1 (if condFirst i then k1_pay3 else xs)) = a) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare (if condLast i then k1_pay2 a else xi2) ∗ owns (c : Thread nD τ) arg4 fullShare a) -∗ K ⟨⟩))
      ⊢ wp frame (wpE (defs₀ (F := F)) Variants.none c none) E (cc1_kernel i arg1 harg1 arg2 harg2 arg3 harg3 arg4 harg4) K := by
  subst ha
  by_cases hc0 : condFirst i <;> by_cases hc1 : condLast i
  · exact absurd ⟨hc0, hc1⟩ hne
  all_goals
    first | rw [if_pos hc0] | rw [if_neg hc0]
    first | rw [if_pos hc1] | rw [if_neg hc1]
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    iexists _; isplitr; swap; iexact H2
    rotate_left
    iexists _; isplitr; swap; iexact HS
    all_goals ipureintro
    all_goals first
      | exact harg3.read_unread _
      | refine (View.read_writes_eq_canon _ _ _ (View.cover_of_tiledL _ S1x1.size (by sl_kernel_rfl))).trans ?_
        sl_unfold_words
        rw [View.canon_cons_unit_zero (S := S1x1) hz2]
        simp only [View.readAt_eq_ld, harg1.read_unread, harg2.read_unread, harg4.read_unread, View.ld_unit_zero (S := S1x256x2048) hz3, View.ld_unit_zero (S := S1x256x256) hz3, View.ld_unit_zero (S := S1x1) hz2, View.readCov_unit_zero (S := S1x1) _ hz2]

end Runs

end Cert.Kernel.Coh

end
-- ==== Proof.WordCohFrame.lean ====
import proofs.«116411_j74517682586316_1_alg».proof.Proof.WordCohRuns

set_option maxRecDepth 16384

noncomputable section

namespace Cert.Kernel.Coh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Lib.RunningSum

variable (V : (c : Dev nD) → (b : Ref sig .tc) → Buf (Elt F) ((c : Thread nD τ).loc b))

/-- Window `w`'s block at point `t` of the arrays `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after point `n`. -/
def acc (c : Dev nD) : (n : ℕ) → n < cfg1.N → Vec F S1x1 .f32 :=
  accOf (fun t a => k1_pay1 (k1_pay4 (iblk V c 0 t) (iblk V c 1 t) a)) k1_pay3

abbrev Rest (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄) = iprop(iprop((∃ d, owns (c : Thread nD τ) scM fullShare d) ∗ Rest c) ∗ (∃ r, prngReg c r)) := by
  unfold Pipeline.ΦA
  rw [Pipeline.scopedRest_split_of_list spec1 c [cc1_scratch0] (by decide) (by decide)]
  simp only [scM, owns_whole]; try rfl

/-- Before point `n` the accumulator holds the running sum after point `n - 1` (anything when `n = 0`). -/
def PhiS (c : Dev nD) (n : ℕ) : sProp 𝕄 :=
  iprop(iprop((∃ d, ⌜∀ k h, k + 1 = n → d = acc V c k h⌝ ∗ owns (c : Thread nD τ) scM fullShare d) ∗ Rest c) ∗ (∃ r, prngReg c r))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (acc V c t.val t.isLt)
  Φ t := PhiS V c t.val
  q _ := fullShare
  owed _ := 0

theorem A_eq (c : Dev nD) (w : Fin cfg1.W) : (dat V c).A w = V c (Pipeline.arrRef spec1 w) := rfl
theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

theorem leaves_in (c : Dev nD) (t : Fin cfg1.N) (w : Fin cfg1.W) (hl : cfg1.idle w (grid1.coords t) = false) :
    (dat V c).leavesExact w t = owns (c : Thread nD τ) ((cfg1.win w).stage (cfg1.slots t w)) fullShare ((dat V c).after w t) := by
  unfold Dat.leavesExact; rw [hl]

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl,
    show (dat V c).Φ t.succ = PhiS V c (t.val + 1) from rfl, show (dat V c).Φ t.castSucc = PhiS V c t.val from rfl,
    leaves_in V c t 0 (liveAt_0 t), leaves_in V c t 1 (liveAt_1 t)]
  have hne : ¬(condFirst (grid1.coords t) ∧ condLast (grid1.coords t)) := fun h => by
    have := (hcondFirst t).mp h.1; have := (hcondLast t).mp h.2; omega
  unfold PhiS
  iintro ⟨⟨⟨⟨%d, %hd, HS⟩, HR⟩, Hg⟩, Ho, ⟨%d0, H0⟩, ⟨%d1, H1⟩, ⟨%d2, H2⟩⟩
  iapply (run c (grid1.coords t) _ _ _ _ _ _ _ _ (iblk V c 0 t) (iblk V c 1 t) hne ((dat V c).before 2 t d2) d _
    (accOf_step _ _ t _ (hcondFirst t) d hd) Set.univ _)
  iframe
  iintro ⟨H0, H1, H2, HS⟩
  isplitl [HS]
  · iexists _; isplitr; swap; · iexact HS
    ipureintro; exact accOf_at _ _ _ _
  isplitl [H0]; · iexact H0
  isplitl [H1]; · iexact H1
  by_cases h1 : condLast (grid1.coords t)
  · rw [leaves_in V c t 2 (liveAt_2 t h1), if_pos h1]
    iexact H2
  · rw [Dat.leavesExact_idle (dat V c) 2 t (idleAt_2 t h1) (noFlush_2 t h1), if_neg h1]
    iexists _; iexact H2

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 from rfl, PhiA_eq]; unfold PhiS
  iintro ⟨⟨⟨%d, HS⟩, HR⟩, Hg⟩
  iframe
  iexists d; iframe
  ipureintro; intro k h hk; omega

theorem hout (c : Dev nD) : (dat V c).Φ (Fin.last cfg1.N) ⊢ Pipeline.ΦA spec1 c := by
  rw [show (dat V c).Φ (Fin.last cfg1.N) = PhiS V c (Fin.last cfg1.N).val from rfl, PhiA_eq]; unfold PhiS
  iintro ⟨⟨⟨%d, -, HS⟩, HR⟩, Hg⟩
  iframe
  iexists d; iexact HS

end Cert.Kernel.Coh

end
-- ==== Proof.WordRun.lean ====
import proofs.«116411_j74517682586316_1_alg».proof.Proof.WordMagFrame
import proofs.«116411_j74517682586316_1_alg».proof.Proof.WordCohFrame
import proofs.«116411_j74517682586316_1_alg».proof.Proof.Gen.Kernel.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev Vin : (c : Dev nD) → (b : Ref sig .tc) → Buf (Elt F) ((c : Thread nD τ).loc b) := fun c b => W0 m ρ c b

/-- The buffers after the first kernel region: its windows' arrays at their final contents, all else as launched. -/
def WMag (c : Dev nD) : Valuation τ sig (Elt F) :=
  Pipeline.withArrays spec0 c (W0 m ρ c) fun w => (Mag.dat (Vin m ρ) c).arrAt w cfg0.N
theorem WMag_arr (c : Dev nD) (w : Fin cfg0.W) :
    WMag m ρ c (Proc.devRef .tc (Pipeline.arrRef spec0 w)) = (Mag.dat (Vin m ρ) c).arrAt w cfg0.N := by
  unfold WMag; exact Pipeline.withArrays_arr spec0 launch0.win.arr_inj c _ _ w
theorem WMag_of_ne (c : Dev nD) (b : Ref sig .tc) (hb : ∀ w, Pipeline.arrRef spec0 w ≠ b) :
    WMag m ρ c (Proc.devRef .tc b) = m ((c : Thread nD τ).loc b) := by
  unfold WMag; exact Pipeline.withArrays_of_ne spec0 c _ _ b hb

theorem WMag_in (c : Dev nD) (w : Fin cfg0.W) (hin : (cfg0.win w).isOut = false) :
    WMag m ρ c (Proc.devRef .tc (Pipeline.arrRef spec0 w)) = m ((c : Thread nD τ).loc (Pipeline.arrRef spec0 w)) :=
  (WMag_arr m ρ c w).trans (((Mag.dat (Vin m ρ) c).arrAt_in w hin _).trans (Mag.A_eq (Vin m ρ) c w))
theorem WMag_v0_0 (c : Dev nD) : WMag m ρ c (Proc.devRef .tc main_v0_0) = (Mag.dat (Vin m ρ) c).arrAt 4 cfg0.N := WMag_arr m ρ c 4
theorem WMag_v0_1 (c : Dev nD) : WMag m ρ c (Proc.devRef .tc main_v0_1) = (Mag.dat (Vin m ρ) c).arrAt 5 cfg0.N := WMag_arr m ρ c 5

abbrev VMag : (c : Dev nD) → (b : Ref sig .tc) → Buf (Elt F) ((c : Thread nD τ).loc b) := fun c b => WMag m ρ c b

/-- The buffers after the two reshapes. -/
abbrev WMid : Dev nD → Valuation τ sig (Elt F) := fun c => StableHlo.after hostOps1 (WMag m ρ c)

theorem WMid_of (c : Dev nD) (r : Ref sig .tc) (h : r ∉ hostOps1_W) :
    WMid m ρ c (Proc.devRef .tc r) = WMag m ρ c (Proc.devRef .tc r) :=
  StableHlo.after_of_writes_sub hostOps1 _ hostOps1_writes h

abbrev Vmid : (c : Dev nD) → (b : Ref sig .tc) → Buf (Elt F) ((c : Thread nD τ).loc b) := fun c b => WMid m ρ c b

/-- The buffers after the second kernel region. -/
def WCoh (c : Dev nD) : Valuation τ sig (Elt F) :=
  Pipeline.withArrays spec1 c (WMid m ρ c) fun w => (Coh.dat (Vmid m ρ) c).arrAt w cfg1.N
theorem WCoh_arr (c : Dev nD) (w : Fin cfg1.W) :
    WCoh m ρ c (Proc.devRef .tc (Pipeline.arrRef spec1 w)) = (Coh.dat (Vmid m ρ) c).arrAt w cfg1.N := by
  unfold WCoh; exact Pipeline.withArrays_arr spec1 launch1.win.arr_inj c _ _ w
theorem WCoh_of_ne (c : Dev nD) (b : Ref sig .tc) (hb : ∀ w, Pipeline.arrRef spec1 w ≠ b) :
    WCoh m ρ c (Proc.devRef .tc b) = WMid m ρ c (Proc.devRef .tc b) := by
  unfold WCoh; exact Pipeline.withArrays_of_ne spec1 c _ _ b hb

theorem WCoh_in (c : Dev nD) (w : Fin cfg1.W) (hin : (cfg1.win w).isOut = false) :
    WCoh m ρ c (Proc.devRef .tc (Pipeline.arrRef spec1 w)) = WMid m ρ c (Proc.devRef .tc (Pipeline.arrRef spec1 w)) :=
  (WCoh_arr m ρ c w).trans (((Coh.dat (Vmid m ρ) c).arrAt_in w hin _).trans (Coh.A_eq (Vmid m ρ) c w))
theorem WCoh_v3 (c : Dev nD) : WCoh m ρ c (Proc.devRef .tc main_v3) = (Coh.dat (Vmid m ρ) c).arrAt 2 cfg1.N := WCoh_arr m ρ c 2

abbrev VCoh : (c : Dev nD) → (b : Ref sig .tc) → Buf (Elt F) ((c : Thread nD τ).loc b) := fun c b => WCoh m ρ c b

/-- The buffers at the return, after the nine scalar operations. -/
def Wend (c : Dev nD) : Valuation τ sig (Elt F) := StableHlo.after hostOps2 (WCoh m ρ c)

theorem Wend_of (c : Dev nD) (r : Ref sig .tc) (h : r ∉ hostOps2_W) :
    Wend m ρ c (Proc.devRef .tc r) = WCoh m ρ c (Proc.devRef .tc r) :=
  StableHlo.after_of_writes_sub hostOps2 _ hostOps2_writes h

theorem Vmid_arg1 (c : Dev nD) : Vmid m ρ c main_arg1 = m ((c : Thread nD τ).loc main_arg1) :=
  (WMid_of m ρ c main_arg1 (by decide)).trans (WMag_in m ρ c 2 rfl)
theorem Vmid_arg4 (c : Dev nD) : Vmid m ρ c main_arg4 = m ((c : Thread nD τ).loc main_arg4) :=
  (WMid_of m ρ c main_arg4 (by decide)).trans (WMag_of_ne m ρ c main_arg4 (by decide))

theorem Wend_main_arg0 (c : Dev nD) : Wend m ρ c (Proc.devRef .tc main_arg0) = m ((c : Thread nD τ).loc main_arg0) :=
  (Wend_of m ρ c main_arg0 (by decide)).trans <| (WCoh_of_ne m ρ c main_arg0 (by decide)).trans <|
    (WMid_of m ρ c main_arg0 (by decide)).trans (WMag_in m ρ c 0 rfl)
theorem Wend_main_arg1 (c : Dev nD) : Wend m ρ c (Proc.devRef .tc main_arg1) = m ((c : Thread nD τ).loc main_arg1) :=
  (Wend_of m ρ c main_arg1 (by decide)).trans <| (WCoh_in m ρ c 0 rfl).trans (Vmid_arg1 m ρ c)
theorem Wend_main_arg2 (c : Dev nD) : Wend m ρ c (Proc.devRef .tc main_arg2) = m ((c : Thread nD τ).loc main_arg2) :=
  (Wend_of m ρ c main_arg2 (by decide)).trans <| (WCoh_of_ne m ρ c main_arg2 (by decide)).trans <|
    (WMid_of m ρ c main_arg2 (by decide)).trans (WMag_in m ρ c 1 rfl)
theorem Wend_main_arg3 (c : Dev nD) : Wend m ρ c (Proc.devRef .tc main_arg3) = m ((c : Thread nD τ).loc main_arg3) :=
  (Wend_of m ρ c main_arg3 (by decide)).trans <| (WCoh_of_ne m ρ c main_arg3 (by decide)).trans <|
    (WMid_of m ρ c main_arg3 (by decide)).trans (WMag_in m ρ c 3 rfl)
theorem Wend_main_arg4 (c : Dev nD) : Wend m ρ c (Proc.devRef .tc main_arg4) = m ((c : Thread nD τ).loc main_arg4) :=
  (Wend_of m ρ c main_arg4 (by decide)).trans <| (WCoh_in m ρ c 1 rfl).trans (Vmid_arg4 m ρ c)

def pdats : (p : Fin 2) → (c : Dev nD) → Dat τ (Elt F) Unit ℕ (UR sig nD τ) ℕ (Pipeline.pin (pcfgs (F := F)) adm p) c
  | ⟨0, _⟩ => fun c => Mag.dat (Vin m ρ) c
  | ⟨1, _⟩ => fun c => Coh.dat (Vmid m ρ) c

abbrev 𝒱₀ : Variants := Variants.none

abbrev L : GSem nD τ sig → Finset Unit := fun _ => ∅
abbrev lv : GSem nD τ sig → Unit → ℕ := fun _ _ => 0

abbrev Side (c : Dev nD) : sProp 𝕄 := iprop((∃ r, prngReg c r) ∗ ∃ W, owes (c : Thread nD τ) (0 : CellTallies nD τ sig Unit) W)

abbrev Between (W : Dev nD → Valuation τ sig (Elt F)) (c : Dev nD) : sProp 𝕄 :=
  iprop(StableHlo.held (c : Thread nD τ) (Pipeline.ucRefs τ sig) (W c) ∗ Side c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

set_option backward.isDefEq.respectTransparency.types false in

def regMag : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mag.body_obligation (Vin m ρ) c).loose
  hwaits := Pipeline.hwaits_of_owed_zero _ _ _ _ L lv 0 fun _ _ => rfl
  pre := Between (W0 m ρ)
  post := Between (WMag m ρ)
  X c := iprop(∃ r, prngReg c r)
  Y c := iprop(∃ r, prngReg c r)
  Z c := Pipeline.unscopedRest (Ix := Unit) (Name := ℕ) (U := UR sig nD τ) (Lvl := ℕ) spec0 c (Vin m ρ c)
  hentry c := by
    have take := Pipeline.arrays_of_unscopedBufs (p := 0) (pcfgs (F := F)) adm (pdats m ρ) launch0.win launch0.arr_whole c
      ((pdats m ρ 0 c).share_full fun _ => rfl) (Vin m ρ c) fun _ => rfl
    rw [Pipeline.unscopedBufs_held] at take
    rw [Pipeline.ownSems0_none]
    iintro ⟨⟨Hbufs, Hreg, Howe⟩, -, -⟩
    ihave Hsplit := take $$ Hbufs
    icases Hsplit with ⟨Harr, Hother⟩
    imodintro
    iframe
    isplitr
    · unfold Pipeline.prefHeld; rw [show (Finset.univ : Finset (Fin 0)) = ∅ from rfl, BI.bigSep_empty]; iempintro
    unfold Pipeline.Dat.owesAt Pipeline.owesWithin
    icases Howe with ⟨%Wr, Howe⟩
    iexists Wr
    isplitr; · ipureintro; exact fun _ _ => Or.inl trivial
    iexact Howe
  hin c := by
    refine BIBase.Entails.trans ?_ (Mag.hin (Vin m ρ) c)
    unfold Pipeline.ΦA
    iintro ⟨Hreg, -, Hscoped⟩
    iframe
  hout c := by
    rw [Pipeline.ownSems0_none]
    refine BIBase.Entails.trans (Mag.hout (Vin m ρ) c) ?_
    unfold Pipeline.ΦA
    iintro ⟨Hscoped, Hreg⟩
    iframe; iempintro
  hexit c := by
    have give := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin m ρ c) (VMag m ρ c) ((pdats m ρ 0 c).arrAt · cfg0.N) (fun w => (WMag_arr m ρ c w).symm)
      fun b hb => WMag_of_ne m ρ c b fun w e => hb (Finset.mem_image.mpr ⟨w, Finset.mem_univ _, e⟩)
    rw [Pipeline.unscopedBufs_held] at give
    iintro ⟨Harr, Howe, Hreg, Hother⟩
    imodintro
    isplitl [Harr Hother]
    · iapply give; iframe
    isplitl [Hreg]; · iexact Hreg
    unfold Pipeline.Dat.owesAt Pipeline.owesWithin
    icases Howe with ⟨%Wr, -, Howe⟩
    iexists Wr; iexact Howe

set_option backward.isDefEq.respectTransparency.types false in

def regCoh : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Coh.body_obligation (Vmid m ρ) c).loose
  hwaits := Pipeline.hwaits_of_owed_zero _ _ _ _ L lv 1 fun _ _ => rfl
  pre := Between (WMid m ρ)
  post := Between (WCoh m ρ)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    have take := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at take
    rw [Pipeline.ownSems0_none]
    iintro ⟨⟨Hbufs, Hreg, Howe⟩, -, -⟩
    ihave Hsplit := take $$ Hbufs
    icases Hsplit with ⟨Harr, Hother⟩
    imodintro
    iframe
    isplitr
    · unfold Pipeline.prefHeld; rw [show (Finset.univ : Finset (Fin 0)) = ∅ from rfl, BI.bigSep_empty]; iempintro
    unfold Pipeline.Dat.owesAt Pipeline.owesWithin
    icases Howe with ⟨%Wr, Howe⟩
    iexists Wr
    isplitr; · ipureintro; exact fun _ _ => Or.inl trivial
    iexact Howe
  hin c := by
    refine BIBase.Entails.trans ?_ (Coh.hin (Vmid m ρ) c)
    unfold Pipeline.ΦA
    iintro ⟨Hreg, -, Hscoped⟩
    iframe
  hout c := by
    rw [Pipeline.ownSems0_none]
    refine BIBase.Entails.trans (Coh.hout (Vmid m ρ) c) ?_
    unfold Pipeline.ΦA
    iintro ⟨Hscoped, Hreg⟩
    iframe; iempintro
  hexit c := by
    have give := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (VCoh m ρ c) ((pdats m ρ 1 c).arrAt · cfg1.N) (fun w => (WCoh_arr m ρ c w).symm)
      fun b hb => WCoh_of_ne m ρ c b fun w e => hb (Finset.mem_image.mpr ⟨w, Finset.mem_univ _, e⟩)
    rw [Pipeline.unscopedBufs_held] at give
    iintro ⟨Harr, Howe, Hreg, Hother⟩
    imodintro
    isplitl [Harr Hother]
    · iapply give; iframe
    isplitl [Hreg]; · iexact Hreg
    unfold Pipeline.Dat.owesAt Pipeline.owesWithin
    icases Howe with ⟨%Wr, -, Howe⟩
    iexists Wr; iexact Howe

abbrev reshapes : Pipeline.HostSeg (Name := ℕ) (U := UR sig nD τ) (pcfgs (F := F)) defs₀ 𝒱₀ L lv :=
  hostItem hostOps1 hostOps1_sub hostOps1_fresh (WMag m ρ)

abbrev scalars : Pipeline.HostSeg (Name := ℕ) (U := UR sig nD τ) (pcfgs (F := F)) defs₀ 𝒱₀ L lv :=
  hostItem hostOps2 hostOps2_sub hostOps2_fresh (WCoh m ρ)

abbrev items : List (Pipeline.Seg (pcfgs (F := F)) adm (pdats m ρ) () defs₀ 𝒱₀ L lv) :=
  [ .region (regMag m ρ), .host (reshapes m ρ), .region (regCoh m ρ), .host (scalars m ρ) ]

theorem main_run (c : Dev nD) : main (F := F) c = Pipeline.Seg.run (items m ρ) :=
  main_segs adm (pdats m ρ) () 𝒱₀ L lv (reshapes m ρ) (scalars m ρ) (regMag m ρ) (regCoh m ρ) rfl rfl c

abbrev AtReturn (c : Dev nD) : sProp 𝕄 :=
  iprop(StableHlo.held (c : Thread nD τ) (Pipeline.ucRefs τ sig) (Wend m ρ c) ∗ ∃ r, prngReg c r)

theorem atReturn_of (c : Dev nD) :
    Between (Wend m ρ) c ⊢ iprop(AtReturn m ρ c ∗ ∃ W, owes (c : Thread nD τ) (0 : CellTallies nD τ sig Unit) W) := by
  iintro ⟨Hbufs, Hreg, Howe⟩
  unfold AtReturn; iframe

set_option backward.isDefEq.respectTransparency.types false in

/-- Every fair execution of @main ends, each unscoped buffer holding the last stage's contents. -/
theorem run_main : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Between (W0 m ρ)) (Tₙ := AtReturn m ρ)
    (hch := ⟨fun _ => .rfl, fun _ => .rfl, fun _ => .rfl, fun _ => .rfl, fun c => atReturn_of m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = Wend m ρ c b)
    (hfin := fun c s' => by
      iintro ⟨⟨Hbufs, -⟩, HSI⟩
      unfold StableHlo.held
      imodintro
      iapply (pointsTo_read_all (Pipeline.ucRefs τ sig) (fun b => (((c : Thread nD τ)).1, b)) (Wend m ρ c) s')
      isplitl [Hbufs] <;> iassumption)
    (hQ := fun s h => h)

/-- So every argument ends as launched: no item writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c)⟩) (run_main m ρ)

end Cert.Kernel.Run

end
-- ==== Proof.MagRuns.lean ====
import proofs.«116411_j74517682586316_1_alg».proof.Proof.Gen.KernelIdeal.Launch
import proofs.«116411_j74517682586316_1_alg».proof.Proof.Gen.KernelIdeal.Skeleton
import proofs.«116411_j74517682586316_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«116411_j74517682586316_1_alg».proof.Proof.LibRunningSum

set_option maxRecDepth 16384

noncomputable section

namespace Cert.KernelIdeal.Mag

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val = 0 :=
  (by decide +kernel : ∀ t : Fin grid0.N, condFirst (grid0.coords t) ↔ t.val = 0)
abbrev condLast (i : grid0.Coords) : Prop := k0_cond2 i = 1#1
theorem hcondLast : ∀ t : Fin cfg0.N, condLast (grid0.coords t) ↔ t.val % 32 = 31 :=
  (by decide +kernel : ∀ t : Fin grid0.N, condLast (grid0.coords t) ↔ t.val % 32 = 31)

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem idleAt_4 : ∀ t : Fin cfg0.N, ¬condLast (grid0.coords t) → cfg0.idle 4 (grid0.coords t) = true := by decide +kernel
theorem noFlush_4 : ∀ t : Fin cfg0.N, ¬condLast (grid0.coords t) → (cfg0.win 4).flush t = false := by decide +kernel
theorem liveAt_4 : ∀ t : Fin cfg0.N, condLast (grid0.coords t) → cfg0.idle 4 (grid0.coords t) = false := by decide +kernel
theorem idleAt_5 : ∀ t : Fin cfg0.N, ¬condLast (grid0.coords t) → cfg0.idle 5 (grid0.coords t) = true := by decide +kernel
theorem noFlush_5 : ∀ t : Fin cfg0.N, ¬condLast (grid0.coords t) → (cfg0.win 5).flush t = false := by decide +kernel
theorem liveAt_5 : ∀ t : Fin cfg0.N, condLast (grid0.coords t) → cfg0.idle 5 (grid0.coords t) = false := by decide +kernel

abbrev ms_0 (t : Fin cfg0.N) : Memref sig .tc .vmem S1x256x2048 .f32 := win0_0.stage (cfg0.slots t 0)
abbrev ms_1 (t : Fin cfg0.N) : Memref sig .tc .vmem S1x256x2048 .f32 := win0_1.stage (cfg0.slots t 1)
abbrev ms_2 (t : Fin cfg0.N) : Memref sig .tc .vmem S1x256x2048 .f32 := win0_2.stage (cfg0.slots t 2)
abbrev ms_3 (t : Fin cfg0.N) : Memref sig .tc .vmem S1x256x2048 .f32 := win0_3.stage (cfg0.slots t 3)
abbrev ms_4 (t : Fin cfg0.N) : Memref sig .tc .vmem S1x1 .f32 := win0_4.stage (cfg0.slots t 4)
abbrev ms_5 (t : Fin cfg0.N) : Memref sig .tc .vmem S1x1 .f32 := win0_5.stage (cfg0.slots t 5)
abbrev scM7 : Memref sig .tc .vmem S1x1 .f32 := Memref.whole cc0_scratch0
abbrev scM8 : Memref sig .tc .vmem S1x1 .f32 := Memref.whole cc0_scratch1

theorem hz2 : (![0, 0] : Fin 2 → Nat) = fun _ => 0 := funext fun a => by fin_cases a <;> rfl
theorem hz3 : (![0, 0, 0] : Fin 3 → Nat) = fun _ => 0 := funext fun a => by fin_cases a <;> rfl

section Runs

variable (c : Dev nD) (i : grid0.Coords) (arg1 : Memref sig .tc .vmem S1x256x2048 .f32) (harg1 : arg1.IsWhole)
  (arg2 : Memref sig .tc .vmem S1x256x2048 .f32) (harg2 : arg2.IsWhole) (arg3 : Memref sig .tc .vmem S1x256x2048 .f32) (harg3 : arg3.IsWhole)
  (arg4 : Memref sig .tc .vmem S1x256x2048 .f32) (harg4 : arg4.IsWhole) (arg5 : Memref sig .tc .vmem S1x1 .f32) (harg5 : arg5.IsWhole)
  (arg6 : Memref sig .tc .vmem S1x1 .f32) (harg6 : arg6.IsWhole) (arg7 : Memref sig .tc .vmem S1x1 .f32) (harg7 : arg7.IsWhole)
  (arg8 : Memref sig .tc .vmem S1x1 .f32) (harg8 : arg8.IsWhole) (x0 x1 x2 x3 : Vec F S1x256x2048 .f32)

set_option maxHeartbeats 4000000 in
/-- At any grid point each accumulator (zeroed first at the first point) gains its tile's sum; at the last each output gets its own over the count. -/
theorem run (hne : ¬(condFirst i ∧ condLast i)) (xi4 xi5 xs7 xs8 a7 a8 : Vec F S1x1 .f32)
    (ha7 : k0_pay6 x0 x1 (if condFirst i then k0_pay4 else xs7) = a7)
    (ha8 : k0_pay1 (k0_pay7 x2 x3 (if condFirst i then k0_pay5 else xs8)) = a8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs7 ∗ owns (c : Thread nD τ) arg8 fullShare xs8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (if condLast i then k0_pay2 a7 else xi4) ∗ owns (c : Thread nD τ) arg6 fullShare (if condLast i then k0_pay3 a8 else xi5) ∗ owns (c : Thread nD τ) arg7 fullShare a7 ∗ owns (c : Thread nD τ) arg8 fullShare a8) -∗ K ⟨⟩))
      ⊢ wp frame (wpE (defs₀ (F := F)) Variants.none c none) E (cc0_kernel i arg1 harg1 arg2 harg2 arg3 harg3 arg4 harg4 arg5 harg5 arg6 harg6 arg7 harg7 arg8 harg8) K := by
  subst ha7 ha8
  by_cases hc0 : condFirst i <;> by_cases hc1 : condLast i
  · exact absurd ⟨hc0, hc1⟩ hne
  all_goals
    first | rw [if_pos hc0, if_pos hc0] | rw [if_neg hc0, if_neg hc0]
    first | rw [if_pos hc1, if_pos hc1] | rw [if_neg hc1, if_neg hc1]
    simp only [cc0_kernel_eq_skeleton]; unfold cc0_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs7, %hfs7, HS7⟩, ⟨%fs8, %hfs8, HS8⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs7; obtain rfl := harg8.eq_unread hfs8
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    iexists _; isplitr; swap; iexact H4
    rotate_left
    isplitl [H5]
    iexists _; isplitr; swap; iexact H5
    rotate_left
    isplitl [HS7]
    iexists _; isplitr; swap; iexact HS7
    rotate_left
    iexists _; isplitr; swap; iexact HS8
    all_goals ipureintro
    all_goals first
      | exact harg5.read_unread _
      | exact harg6.read_unread _
      | refine (View.read_writes_eq_canon _ _ _ (View.cover_of_tiledL _ S1x1.size (by sl_kernel_rfl))).trans ?_
        sl_unfold_words
        rw [View.canon_cons_unit_zero (S := S1x1) hz2]
        simp only [View.readAt_eq_ld, harg1.read_unread, harg2.read_unread, harg3.read_unread, harg4.read_unread, harg7.read_unread, harg8.read_unread, View.ld_unit_zero (S := S1x256x2048) hz3, View.ld_unit_zero (S := S1x1) hz2, View.readCov_unit_zero (S := S1x1) _ hz2]

end Runs

end Cert.KernelIdeal.Mag

end
-- ==== Proof.MagFrame.lean ====
import proofs.«116411_j74517682586316_1_alg».proof.Proof.MagRuns

set_option maxRecDepth 16384

noncomputable section

namespace Cert.KernelIdeal.Mag

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Lib.RunningSum

variable (V : (c : Dev nD) → (b : Ref sig .tc) → Buf (Elt F) ((c : Thread nD τ).loc b))

/-- Window `w`'s block at point `t` of the arrays `V`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two running sums after point `n`. -/
def acc7 (c : Dev nD) : (n : ℕ) → n < cfg0.N → Vec F S1x1 .f32 :=
  accOf (fun t a => k0_pay6 (iblk V c 0 t) (iblk V c 1 t) a) k0_pay4
def acc8 (c : Dev nD) : (n : ℕ) → n < cfg0.N → Vec F S1x1 .f32 :=
  accOf (fun t a => k0_pay1 (k0_pay7 (iblk V c 2 t) (iblk V c 3 t) a)) k0_pay5

abbrev Rest (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(iprop((∃ d, owns (c : Thread nD τ) scM7 fullShare d) ∗ (∃ d, owns (c : Thread nD τ) scM8 fullShare d)) ∗ Rest c) ∗ (∃ r, prngReg c r)) := by
  unfold Pipeline.ΦA
  rw [Pipeline.scopedRest_split_of_list spec0 c [cc0_scratch0, cc0_scratch1] (by decide) (by decide)]
  simp only [scM7, scM8, owns_whole]; try rfl

/-- Before point `n` each accumulator holds its running sum after point `n - 1` (anything when `n = 0`). -/
def PhiS (c : Dev nD) (n : ℕ) : sProp 𝕄 :=
  iprop(iprop(iprop((∃ d, ⌜∀ k h, k + 1 = n → d = acc7 V c k h⌝ ∗ owns (c : Thread nD τ) scM7 fullShare d)
      ∗ (∃ d, ⌜∀ k h, k + 1 = n → d = acc8 V c k h⌝ ∗ owns (c : Thread nD τ) scM8 fullShare d)) ∗ Rest c) ∗ (∃ r, prngReg c r))

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (acc7 V c t.val t.isLt)
    | ⟨5, _⟩ => k0_pay3 (acc8 V c t.val t.isLt)
  Φ t := PhiS V c t.val
  q _ := fullShare
  owed _ := 0

theorem A_eq (c : Dev nD) (w : Fin cfg0.W) : (dat V c).A w = V c (Pipeline.arrRef spec0 w) := rfl
theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d
theorem before_2 (c : Dev nD) (t : Fin cfg0.N) (d) : (dat V c).before 2 t d = iblk V c 2 t :=
  (dat V c).before_in_eq_fetched 2 rfl (fun _ => rfl) (fun _ _ _ => rfl) (fun _ => rfl) t d
theorem before_3 (c : Dev nD) (t : Fin cfg0.N) (d) : (dat V c).before 3 t d = iblk V c 3 t :=
  (dat V c).before_in_eq_fetched 3 rfl (fun _ => rfl) (fun _ _ _ => rfl) (fun _ => rfl) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t)

theorem leaves_in (c : Dev nD) (t : Fin cfg0.N) (w : Fin cfg0.W) (hl : cfg0.idle w (grid0.coords t) = false) :
    (dat V c).leavesExact w t = owns (c : Thread nD τ) ((cfg0.win w).stage (cfg0.slots t w)) fullShare ((dat V c).after w t) := by
  unfold Dat.leavesExact; rw [hl]

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = PhiS V c (t.val + 1) from rfl, show (dat V c).Φ t.castSucc = PhiS V c t.val from rfl,
    leaves_in V c t 0 (liveAt_0 t), leaves_in V c t 1 (liveAt_1 t), leaves_in V c t 2 (liveAt_2 t), leaves_in V c t 3 (liveAt_3 t)]
  have hne : ¬(condFirst (grid0.coords t) ∧ condLast (grid0.coords t)) := fun h => by
    have := (hcondFirst t).mp h.1; have := (hcondLast t).mp h.2; omega
  unfold PhiS
  iintro ⟨⟨⟨⟨⟨%e7, %he7, HS7⟩, ⟨%e8, %he8, HS8⟩⟩, HR⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ (iblk V c 0 t) (iblk V c 1 t) (iblk V c 2 t) (iblk V c 3 t) hne
    ((dat V c).before 4 t d4) ((dat V c).before 5 t d5) e7 e8 _ _ (accOf_step _ _ t _ (hcondFirst t) e7 he7)
    (accOf_step _ _ t _ (hcondFirst t) e8 he8) Set.univ _)
  iframe
  iintro ⟨H0, H1, H2, H3, H4, H5, HS7, HS8⟩
  isplitl [HS7 HS8]
  · isplitl [HS7]
    · iexists _; isplitr; swap; · iexact HS7
      ipureintro; exact accOf_at _ _ _ _
    iexists _; isplitr; swap; · iexact HS8
    ipureintro; exact accOf_at _ _ _ _
  isplitl [H0]; · iexact H0
  isplitl [H1]; · iexact H1
  isplitl [H2]; · iexact H2
  isplitl [H3]; · iexact H3
  by_cases h1 : condLast (grid0.coords t)
  · rw [leaves_in V c t 4 (liveAt_4 t h1), leaves_in V c t 5 (liveAt_5 t h1)]; simp only [if_pos h1]
    isplitl [H4]; · iexact H4
    iexact H5
  · rw [Dat.leavesExact_idle (dat V c) 4 t (idleAt_4 t h1) (noFlush_4 t h1), Dat.leavesExact_idle (dat V c) 5 t (idleAt_5 t h1) (noFlush_5 t h1)]
    simp only [if_neg h1]
    isplitl [H4]; · iexists _; iexact H4
    iexists _; iexact H5

theorem body_obligation (c : Dev nD) : BodyObligation (dat (F := F) V c) (defs₀ (F := F)) Variants.none () Set.univ := fun t => by
  rw [bigSep_W0, bigSep_W0]
  exact sound_body V c t

theorem hin (c : Dev nD) : Pipeline.ΦA spec0 c ⊢ (dat V c).Φ 0 := by
  rw [show (dat V c).Φ 0 = PhiS V c 0 from rfl, PhiA_eq]; unfold PhiS
  iintro ⟨⟨⟨⟨%d7, HS7⟩, ⟨%d8, HS8⟩⟩, HR⟩, Hg⟩
  iframe
  isplitl [HS7]
  · iexists d7; iframe
    ipureintro; intro k h hk; omega
  iexists d8; iframe
  ipureintro; intro k h hk; omega

theorem hout (c : Dev nD) : (dat V c).Φ (Fin.last cfg0.N) ⊢ Pipeline.ΦA spec0 c := by
  rw [show (dat V c).Φ (Fin.last cfg0.N) = PhiS V c (Fin.last cfg0.N).val from rfl, PhiA_eq]; unfold PhiS
  iintro ⟨⟨⟨⟨%d7, -, HS7⟩, ⟨%d8, -, HS8⟩⟩, HR⟩, Hg⟩
  iframe
  isplitl [HS7]; · iexists d7; iexact HS7
  iexists d8; iexact HS8

end Cert.KernelIdeal.Mag

end
-- ==== Proof.CohRuns.lean ====
import proofs.«116411_j74517682586316_1_alg».proof.Proof.Gen.KernelIdeal.Launch
import proofs.«116411_j74517682586316_1_alg».proof.Proof.Gen.KernelIdeal.Skeleton
import proofs.«116411_j74517682586316_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import proofs.«116411_j74517682586316_1_alg».proof.Proof.LibRunningSum

set_option maxRecDepth 16384

noncomputable section

namespace Cert.KernelIdeal.Coh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev condFirst (i : grid1.Coords) : Prop := (Scalar.cmpi .ne (Scalar.extui (Scalar.cmpi .eq (BitVec.ofNat 32 (i 0).val) 0#32)) 0#32) = 1#1
theorem hcondFirst : ∀ t : Fin cfg1.N, condFirst (grid1.coords t) ↔ t.val = 0 :=
  (by decide +kernel : ∀ t : Fin grid1.N, condFirst (grid1.coords t) ↔ t.val = 0)
abbrev condLast (i : grid1.Coords) : Prop := k1_cond2 i = 1#1
theorem hcondLast : ∀ t : Fin cfg1.N, condLast (grid1.coords t) ↔ t.val % 32 = 31 :=
  (by decide +kernel : ∀ t : Fin grid1.N, condLast (grid1.coords t) ↔ t.val % 32 = 31)

theorem liveAt_0 : ∀ t : Fin cfg1.N, cfg1.idle 0 (grid1.coords t) = false := by decide +kernel
theorem liveAt_1 : ∀ t : Fin cfg1.N, cfg1.idle 1 (grid1.coords t) = false := by decide +kernel
theorem idleAt_2 : ∀ t : Fin cfg1.N, ¬condLast (grid1.coords t) → cfg1.idle 2 (grid1.coords t) = true := by decide +kernel
theorem noFlush_2 : ∀ t : Fin cfg1.N, ¬condLast (grid1.coords t) → (cfg1.win 2).flush t = false := by decide +kernel
theorem liveAt_2 : ∀ t : Fin cfg1.N, condLast (grid1.coords t) → cfg1.idle 2 (grid1.coords t) = false := by decide +kernel

abbrev ms_0 (t : Fin cfg1.N) : Memref sig .tc .vmem S1x256x2048 .f32 := win1_0.stage (cfg1.slots t 0)
abbrev ms_1 (t : Fin cfg1.N) : Memref sig .tc .vmem S1x256x256 .f32 := win1_1.stage (cfg1.slots t 1)
abbrev ms_2 (t : Fin cfg1.N) : Memref sig .tc .vmem S1x1 .f32 := win1_2.stage (cfg1.slots t 2)
abbrev scM : Memref sig .tc .vmem S1x1 .f32 := Memref.whole cc1_scratch0

theorem hz2 : (![0, 0] : Fin 2 → Nat) = fun _ => 0 := funext fun a => by fin_cases a <;> rfl
theorem hz3 : (![0, 0, 0] : Fin 3 → Nat) = fun _ => 0 := funext fun a => by fin_cases a <;> rfl

section Runs

variable (c : Dev nD) (i : grid1.Coords) (arg1 : Memref sig .tc .vmem S1x256x2048 .f32) (harg1 : arg1.IsWhole)
  (arg2 : Memref sig .tc .vmem S1x256x256 .f32) (harg2 : arg2.IsWhole) (arg3 : Memref sig .tc .vmem S1x1 .f32) (harg3 : arg3.IsWhole)
  (arg4 : Memref sig .tc .vmem S1x1 .f32) (harg4 : arg4.IsWhole) (x0 : Vec F S1x256x2048 .f32) (x1 : Vec F S1x256x256 .f32)

set_option maxHeartbeats 2000000 in
/-- At any grid point the accumulator (zeroed first at the first point) gains the tile's sum; at the last the output gets it over the count. -/
theorem run (hne : ¬(condFirst i ∧ condLast i)) (xi2 xs a : Vec F S1x1 .f32)
    (ha : k1_pay1 (k1_pay4 x0 x1 (if condFirst i then k1_pay3 else xs)) = a) (E : Set ℕ) (K : PUnit → sProp 𝕄) :
    iprop(owns (c : Thread nD τ) arg1 fullShare x0 ∗ owns (c : Thread nD τ) arg2 fullShare x1 ∗ owns (c : Thread nD τ) arg3 fullShare xi2 ∗ owns (c : Thread nD τ) arg4 fullShare xs
        ∗ (iprop(owns (c : Thread nD τ) arg1 fullShare x0 ∗ owns (c : Thread nD τ) arg2 fullShare x1 ∗ owns (c : Thread nD τ) arg3 fullShare (if condLast i then k1_pay2 a else xi2) ∗ owns (c : Thread nD τ) arg4 fullShare a) -∗ K ⟨⟩))
      ⊢ wp frame (wpE (defs₀ (F := F)) Variants.none c none) E (cc1_kernel i arg1 harg1 arg2 harg2 arg3 harg3 arg4 harg4) K := by
  subst ha
  by_cases hc0 : condFirst i <;> by_cases hc1 : condLast i
  · exact absurd ⟨hc0, hc1⟩ hne
  all_goals
    first | rw [if_pos hc0] | rw [if_neg hc0]
    first | rw [if_pos hc1] | rw [if_neg hc1]
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%fs, %hfs, HS⟩, Hk⟩
    obtain rfl := harg1.eq_unread hf0; obtain rfl := harg2.eq_unread hf1; obtain rfl := harg3.eq_unread hf2; obtain rfl := harg4.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    iexists _; isplitr; swap; iexact H2
    rotate_left
    iexists _; isplitr; swap; iexact HS
    all_goals ipureintro
    all_goals first
      | exact harg3.read_unread _
      | refine (View.read_writes_eq_canon _ _ _ (View.cover_of_tiledL _ S1x1.size (by sl_kernel_rfl))).trans ?_
        sl_unfold_words
        rw [View.canon_cons_unit_zero (S := S1x1) hz2]
        simp only [View.readAt_eq_ld, harg1.read_unread, harg2.read_unread, harg4.read_unread, View.ld_unit_zero (S := S1x256x2048) hz3, View.ld_unit_zero (S := S1x256x256) hz3, View.ld_unit_zero (S := S1x1) hz2, View.readCov_unit_zero (S := S1x1) _ hz2]

end Runs

end Cert.KernelIdeal.Coh

end
-- ==== Proof.CohFrame.lean ====
import proofs.«116411_j74517682586316_1_alg».proof.Proof.CohRuns

set_option maxRecDepth 16384

noncomputable section

namespace Cert.KernelIdeal.Coh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Lib.RunningSum

variable (V : (c : Dev nD) → (b : Ref sig .tc) → Buf (Elt F) ((c : Thread nD τ).loc b))

/-- Window `w`'s block at point `t` of the arrays `V`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after point `n`. -/
def acc (c : Dev nD) : (n : ℕ) → n < cfg1.N → Vec F S1x1 .f32 :=
  accOf (fun t a => k1_pay1 (k1_pay4 (iblk V c 0 t) (iblk V c 1 t) a)) k1_pay3

abbrev Rest (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄) = iprop(iprop((∃ d, owns (c : Thread nD τ) scM fullShare d) ∗ Rest c) ∗ (∃ r, prngReg c r)) := by
  unfold Pipeline.ΦA
  rw [Pipeline.scopedRest_split_of_list spec1 c [cc1_scratch0] (by decide) (by decide)]
  simp only [scM, owns_whole]; try rfl

/-- Before point `n` the accumulator holds the running sum after point `n - 1` (anything when `n = 0`). -/
def PhiS (c : Dev nD) (n : ℕ) : sProp 𝕄 :=
  iprop(iprop((∃ d, ⌜∀ k h, k + 1 = n → d = acc V c k h⌝ ∗ owns (c : Thread nD τ) scM fullShare d) ∗ Rest c) ∗ (∃ r, prngReg c r))

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => k1_pay2 (acc V c t.val t.isLt)
  Φ t := PhiS V c t.val
  q _ := fullShare
  owed _ := 0

theorem A_eq (c : Dev nD) (w : Fin cfg1.W) : (dat V c).A w = V c (Pipeline.arrRef spec1 w) := rfl
theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

theorem leaves_in (c : Dev nD) (t : Fin cfg1.N) (w : Fin cfg1.W) (hl : cfg1.idle w (grid1.coords t) = false) :
    (dat V c).leavesExact w t = owns (c : Thread nD τ) ((cfg1.win w).stage (cfg1.slots t w)) fullShare ((dat V c).after w t) := by
  unfold Dat.leavesExact; rw [hl]

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl,
    show (dat V c).Φ t.succ = PhiS V c (t.val + 1) from rfl, show (dat V c).Φ t.castSucc = PhiS V c t.val from rfl,
    leaves_in V c t 0 (liveAt_0 t), leaves_in V c t 1 (liveAt_1 t)]
  have hne : ¬(condFirst (grid1.coords t) ∧ condLast (grid1.coords t)) := fun h => by
    have := (hcondFirst t).mp h.1; have := (hcondLast t).mp h.2; omega
  unfold PhiS
  iintro ⟨⟨⟨⟨%d, %hd, HS⟩, HR⟩, Hg⟩, Ho, ⟨%d0, H0⟩, ⟨%d1, H1⟩, ⟨%d2, H2⟩⟩
  iapply (run c (grid1.coords t) _ _ _ _ _ _ _ _ (iblk V c 0 t) (iblk V c 1 t) hne ((dat V c).before 2 t d2) d _
    (accOf_step _ _ t _ (hcondFirst t) d hd) Set.univ _)
  iframe
  iintro ⟨H0, H1, H2, HS⟩
  isplitl [HS]
  · iexists _; isplitr; swap; · iexact HS
    ipureintro; exact accOf_at _ _ _ _
  isplitl [H0]; · iexact H0
  isplitl [H1]; · iexact H1
  by_cases h1 : condLast (grid1.coords t)
  · rw [leaves_in V c t 2 (liveAt_2 t h1), if_pos h1]
    iexact H2
  · rw [Dat.leavesExact_idle (dat V c) 2 t (idleAt_2 t h1) (noFlush_2 t h1), if_neg h1]
    iexists _; iexact H2

theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 from rfl, PhiA_eq]; unfold PhiS
  iintro ⟨⟨⟨%d, HS⟩, HR⟩, Hg⟩
  iframe
  iexists d; iframe
  ipureintro; intro k h hk; omega

theorem hout (c : Dev nD) : (dat V c).Φ (Fin.last cfg1.N) ⊢ Pipeline.ΦA spec1 c := by
  rw [show (dat V c).Φ (Fin.last cfg1.N) = PhiS V c (Fin.last cfg1.N).val from rfl, PhiA_eq]; unfold PhiS
  iintro ⟨⟨⟨%d, -, HS⟩, HR⟩, Hg⟩
  iframe
  iexists d; iexact HS

end Cert.KernelIdeal.Coh

end
-- ==== Proof.Run.lean ====
import proofs.«116411_j74517682586316_1_alg».proof.Proof.MagFrame
import proofs.«116411_j74517682586316_1_alg».proof.Proof.CohFrame
import proofs.«116411_j74517682586316_1_alg».proof.Proof.Gen.KernelIdeal.Regions
import Idealize.ShloMosaic.Lib.Pipeline.Kit
import Idealize.ShloMosaic.Lib.Pipeline.Frame
import Idealize.ShloMosaic.Lib.Pipeline.Regions
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev Vin : (c : Dev nD) → (b : Ref sig .tc) → Buf (Elt F) ((c : Thread nD τ).loc b) := fun c b => W0 m ρ c b

/-- The buffers after the first kernel region: its windows' arrays at their final contents, all else as launched. -/
def WMag (c : Dev nD) : Valuation τ sig (Elt F) :=
  Pipeline.withArrays spec0 c (W0 m ρ c) fun w => (Mag.dat (Vin m ρ) c).arrAt w cfg0.N
theorem WMag_arr (c : Dev nD) (w : Fin cfg0.W) :
    WMag m ρ c (Proc.devRef .tc (Pipeline.arrRef spec0 w)) = (Mag.dat (Vin m ρ) c).arrAt w cfg0.N := by
  unfold WMag; exact Pipeline.withArrays_arr spec0 launch0.win.arr_inj c _ _ w
theorem WMag_of_ne (c : Dev nD) (b : Ref sig .tc) (hb : ∀ w, Pipeline.arrRef spec0 w ≠ b) :
    WMag m ρ c (Proc.devRef .tc b) = m ((c : Thread nD τ).loc b) := by
  unfold WMag; exact Pipeline.withArrays_of_ne spec0 c _ _ b hb

theorem WMag_in (c : Dev nD) (w : Fin cfg0.W) (hin : (cfg0.win w).isOut = false) :
    WMag m ρ c (Proc.devRef .tc (Pipeline.arrRef spec0 w)) = m ((c : Thread nD τ).loc (Pipeline.arrRef spec0 w)) :=
  (WMag_arr m ρ c w).trans (((Mag.dat (Vin m ρ) c).arrAt_in w hin _).trans (Mag.A_eq (Vin m ρ) c w))
theorem WMag_v0_0 (c : Dev nD) : WMag m ρ c (Proc.devRef .tc main_v0_0) = (Mag.dat (Vin m ρ) c).arrAt 4 cfg0.N := WMag_arr m ρ c 4
theorem WMag_v0_1 (c : Dev nD) : WMag m ρ c (Proc.devRef .tc main_v0_1) = (Mag.dat (Vin m ρ) c).arrAt 5 cfg0.N := WMag_arr m ρ c 5

abbrev VMag : (c : Dev nD) → (b : Ref sig .tc) → Buf (Elt F) ((c : Thread nD τ).loc b) := fun c b => WMag m ρ c b

/-- The buffers after the two reshapes. -/
abbrev WMid : Dev nD → Valuation τ sig (Elt F) := fun c => StableHlo.after hostOps1 (WMag m ρ c)

theorem WMid_of (c : Dev nD) (r : Ref sig .tc) (h : r ∉ hostOps1_W) :
    WMid m ρ c (Proc.devRef .tc r) = WMag m ρ c (Proc.devRef .tc r) :=
  StableHlo.after_of_writes_sub hostOps1 _ hostOps1_writes h

abbrev Vmid : (c : Dev nD) → (b : Ref sig .tc) → Buf (Elt F) ((c : Thread nD τ).loc b) := fun c b => WMid m ρ c b

/-- The buffers after the second kernel region. -/
def WCoh (c : Dev nD) : Valuation τ sig (Elt F) :=
  Pipeline.withArrays spec1 c (WMid m ρ c) fun w => (Coh.dat (Vmid m ρ) c).arrAt w cfg1.N
theorem WCoh_arr (c : Dev nD) (w : Fin cfg1.W) :
    WCoh m ρ c (Proc.devRef .tc (Pipeline.arrRef spec1 w)) = (Coh.dat (Vmid m ρ) c).arrAt w cfg1.N := by
  unfold WCoh; exact Pipeline.withArrays_arr spec1 launch1.win.arr_inj c _ _ w
theorem WCoh_of_ne (c : Dev nD) (b : Ref sig .tc) (hb : ∀ w, Pipeline.arrRef spec1 w ≠ b) :
    WCoh m ρ c (Proc.devRef .tc b) = WMid m ρ c (Proc.devRef .tc b) := by
  unfold WCoh; exact Pipeline.withArrays_of_ne spec1 c _ _ b hb

theorem WCoh_in (c : Dev nD) (w : Fin cfg1.W) (hin : (cfg1.win w).isOut = false) :
    WCoh m ρ c (Proc.devRef .tc (Pipeline.arrRef spec1 w)) = WMid m ρ c (Proc.devRef .tc (Pipeline.arrRef spec1 w)) :=
  (WCoh_arr m ρ c w).trans (((Coh.dat (Vmid m ρ) c).arrAt_in w hin _).trans (Coh.A_eq (Vmid m ρ) c w))
theorem WCoh_v3 (c : Dev nD) : WCoh m ρ c (Proc.devRef .tc main_v3) = (Coh.dat (Vmid m ρ) c).arrAt 2 cfg1.N := WCoh_arr m ρ c 2

abbrev VCoh : (c : Dev nD) → (b : Ref sig .tc) → Buf (Elt F) ((c : Thread nD τ).loc b) := fun c b => WCoh m ρ c b

/-- The buffers at the return, after the nine scalar operations. -/
def Wend (c : Dev nD) : Valuation τ sig (Elt F) := StableHlo.after hostOps2 (WCoh m ρ c)

theorem Wend_of (c : Dev nD) (r : Ref sig .tc) (h : r ∉ hostOps2_W) :
    Wend m ρ c (Proc.devRef .tc r) = WCoh m ρ c (Proc.devRef .tc r) :=
  StableHlo.after_of_writes_sub hostOps2 _ hostOps2_writes h

theorem Vmid_arg1 (c : Dev nD) : Vmid m ρ c main_arg1 = m ((c : Thread nD τ).loc main_arg1) :=
  (WMid_of m ρ c main_arg1 (by decide)).trans (WMag_in m ρ c 2 rfl)
theorem Vmid_arg4 (c : Dev nD) : Vmid m ρ c main_arg4 = m ((c : Thread nD τ).loc main_arg4) :=
  (WMid_of m ρ c main_arg4 (by decide)).trans (WMag_of_ne m ρ c main_arg4 (by decide))

theorem Wend_main_arg0 (c : Dev nD) : Wend m ρ c (Proc.devRef .tc main_arg0) = m ((c : Thread nD τ).loc main_arg0) :=
  (Wend_of m ρ c main_arg0 (by decide)).trans <| (WCoh_of_ne m ρ c main_arg0 (by decide)).trans <|
    (WMid_of m ρ c main_arg0 (by decide)).trans (WMag_in m ρ c 0 rfl)
theorem Wend_main_arg1 (c : Dev nD) : Wend m ρ c (Proc.devRef .tc main_arg1) = m ((c : Thread nD τ).loc main_arg1) :=
  (Wend_of m ρ c main_arg1 (by decide)).trans <| (WCoh_in m ρ c 0 rfl).trans (Vmid_arg1 m ρ c)
theorem Wend_main_arg2 (c : Dev nD) : Wend m ρ c (Proc.devRef .tc main_arg2) = m ((c : Thread nD τ).loc main_arg2) :=
  (Wend_of m ρ c main_arg2 (by decide)).trans <| (WCoh_of_ne m ρ c main_arg2 (by decide)).trans <|
    (WMid_of m ρ c main_arg2 (by decide)).trans (WMag_in m ρ c 1 rfl)
theorem Wend_main_arg3 (c : Dev nD) : Wend m ρ c (Proc.devRef .tc main_arg3) = m ((c : Thread nD τ).loc main_arg3) :=
  (Wend_of m ρ c main_arg3 (by decide)).trans <| (WCoh_of_ne m ρ c main_arg3 (by decide)).trans <|
    (WMid_of m ρ c main_arg3 (by decide)).trans (WMag_in m ρ c 3 rfl)
theorem Wend_main_arg4 (c : Dev nD) : Wend m ρ c (Proc.devRef .tc main_arg4) = m ((c : Thread nD τ).loc main_arg4) :=
  (Wend_of m ρ c main_arg4 (by decide)).trans <| (WCoh_in m ρ c 1 rfl).trans (Vmid_arg4 m ρ c)

def pdats : (p : Fin 2) → (c : Dev nD) → Dat τ (Elt F) Unit ℕ (UR sig nD τ) ℕ (Pipeline.pin (pcfgs (F := F)) adm p) c
  | ⟨0, _⟩ => fun c => Mag.dat (Vin m ρ) c
  | ⟨1, _⟩ => fun c => Coh.dat (Vmid m ρ) c

abbrev 𝒱₀ : Variants := Variants.none

abbrev L : GSem nD τ sig → Finset Unit := fun _ => ∅
abbrev lv : GSem nD τ sig → Unit → ℕ := fun _ _ => 0

abbrev Side (c : Dev nD) : sProp 𝕄 := iprop((∃ r, prngReg c r) ∗ ∃ W, owes (c : Thread nD τ) (0 : CellTallies nD τ sig Unit) W)

abbrev Between (W : Dev nD → Valuation τ sig (Elt F)) (c : Dev nD) : sProp 𝕄 :=
  iprop(StableHlo.held (c : Thread nD τ) (Pipeline.ucRefs τ sig) (W c) ∗ Side c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Side

set_option backward.isDefEq.respectTransparency.types false in

def regMag : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Mag.body_obligation (Vin m ρ) c).loose
  hwaits := Pipeline.hwaits_of_owed_zero _ _ _ _ L lv 0 fun _ _ => rfl
  pre := Between (W0 m ρ)
  post := Between (WMag m ρ)
  X c := iprop(∃ r, prngReg c r)
  Y c := iprop(∃ r, prngReg c r)
  Z c := Pipeline.unscopedRest (Ix := Unit) (Name := ℕ) (U := UR sig nD τ) (Lvl := ℕ) spec0 c (Vin m ρ c)
  hentry c := by
    have take := Pipeline.arrays_of_unscopedBufs (p := 0) (pcfgs (F := F)) adm (pdats m ρ) launch0.win launch0.arr_whole c
      ((pdats m ρ 0 c).share_full fun _ => rfl) (Vin m ρ c) fun _ => rfl
    rw [Pipeline.unscopedBufs_held] at take
    rw [Pipeline.ownSems0_none]
    iintro ⟨⟨Hbufs, Hreg, Howe⟩, -, -⟩
    ihave Hsplit := take $$ Hbufs
    icases Hsplit with ⟨Harr, Hother⟩
    imodintro
    iframe
    isplitr
    · unfold Pipeline.prefHeld; rw [show (Finset.univ : Finset (Fin 0)) = ∅ from rfl, BI.bigSep_empty]; iempintro
    unfold Pipeline.Dat.owesAt Pipeline.owesWithin
    icases Howe with ⟨%Wr, Howe⟩
    iexists Wr
    isplitr; · ipureintro; exact fun _ _ => Or.inl trivial
    iexact Howe
  hin c := by
    refine BIBase.Entails.trans ?_ (Mag.hin (Vin m ρ) c)
    unfold Pipeline.ΦA
    iintro ⟨Hreg, -, Hscoped⟩
    iframe
  hout c := by
    rw [Pipeline.ownSems0_none]
    refine BIBase.Entails.trans (Mag.hout (Vin m ρ) c) ?_
    unfold Pipeline.ΦA
    iintro ⟨Hscoped, Hreg⟩
    iframe; iempintro
  hexit c := by
    have give := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin m ρ c) (VMag m ρ c) ((pdats m ρ 0 c).arrAt · cfg0.N) (fun w => (WMag_arr m ρ c w).symm)
      fun b hb => WMag_of_ne m ρ c b fun w e => hb (Finset.mem_image.mpr ⟨w, Finset.mem_univ _, e⟩)
    rw [Pipeline.unscopedBufs_held] at give
    iintro ⟨Harr, Howe, Hreg, Hother⟩
    imodintro
    isplitl [Harr Hother]
    · iapply give; iframe
    isplitl [Hreg]; · iexact Hreg
    unfold Pipeline.Dat.owesAt Pipeline.owesWithin
    icases Howe with ⟨%Wr, -, Howe⟩
    iexists Wr; iexact Howe

set_option backward.isDefEq.respectTransparency.types false in

def regCoh : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Coh.body_obligation (Vmid m ρ) c).loose
  hwaits := Pipeline.hwaits_of_owed_zero _ _ _ _ L lv 1 fun _ _ => rfl
  pre := Between (WMid m ρ)
  post := Between (WCoh m ρ)
  X c := iprop(∃ r, prngReg c r)
  Y c := iprop(∃ r, prngReg c r)
  Z c := Pipeline.unscopedRest (Ix := Unit) (Name := ℕ) (U := UR sig nD τ) (Lvl := ℕ) spec1 c (Vmid m ρ c)
  hentry c := by
    have take := Pipeline.arrays_of_unscopedBufs (p := 1) (pcfgs (F := F)) adm (pdats m ρ) launch1.win launch1.arr_whole c
      ((pdats m ρ 1 c).share_full fun _ => rfl) (Vmid m ρ c) fun _ => rfl
    rw [Pipeline.unscopedBufs_held] at take
    rw [Pipeline.ownSems0_none]
    iintro ⟨⟨Hbufs, Hreg, Howe⟩, -, -⟩
    ihave Hsplit := take $$ Hbufs
    icases Hsplit with ⟨Harr, Hother⟩
    imodintro
    iframe
    isplitr
    · unfold Pipeline.prefHeld; rw [show (Finset.univ : Finset (Fin 0)) = ∅ from rfl, BI.bigSep_empty]; iempintro
    unfold Pipeline.Dat.owesAt Pipeline.owesWithin
    icases Howe with ⟨%Wr, Howe⟩
    iexists Wr
    isplitr; · ipureintro; exact fun _ _ => Or.inl trivial
    iexact Howe
  hin c := by
    refine BIBase.Entails.trans ?_ (Coh.hin (Vmid m ρ) c)
    unfold Pipeline.ΦA
    iintro ⟨Hreg, -, Hscoped⟩
    iframe
  hout c := by
    rw [Pipeline.ownSems0_none]
    refine BIBase.Entails.trans (Coh.hout (Vmid m ρ) c) ?_
    unfold Pipeline.ΦA
    iintro ⟨Hscoped, Hreg⟩
    iframe; iempintro
  hexit c := by
    have give := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vmid m ρ c) (VCoh m ρ c) ((pdats m ρ 1 c).arrAt · cfg1.N) (fun w => (WCoh_arr m ρ c w).symm)
      fun b hb => WCoh_of_ne m ρ c b fun w e => hb (Finset.mem_image.mpr ⟨w, Finset.mem_univ _, e⟩)
    rw [Pipeline.unscopedBufs_held] at give
    iintro ⟨Harr, Howe, Hreg, Hother⟩
    imodintro
    isplitl [Harr Hother]
    · iapply give; iframe
    isplitl [Hreg]; · iexact Hreg
    unfold Pipeline.Dat.owesAt Pipeline.owesWithin
    icases Howe with ⟨%Wr, -, Howe⟩
    iexists Wr; iexact Howe

abbrev reshapes : Pipeline.HostSeg (Name := ℕ) (U := UR sig nD τ) (pcfgs (F := F)) defs₀ 𝒱₀ L lv :=
  hostItem hostOps1 hostOps1_sub hostOps1_fresh (WMag m ρ)

abbrev scalars : Pipeline.HostSeg (Name := ℕ) (U := UR sig nD τ) (pcfgs (F := F)) defs₀ 𝒱₀ L lv :=
  hostItem hostOps2 hostOps2_sub hostOps2_fresh (WCoh m ρ)

abbrev items : List (Pipeline.Seg (pcfgs (F := F)) adm (pdats m ρ) () defs₀ 𝒱₀ L lv) :=
  [ .region (regMag m ρ), .host (reshapes m ρ), .region (regCoh m ρ), .host (scalars m ρ) ]

theorem main_run (c : Dev nD) : main (F := F) c = Pipeline.Seg.run (items m ρ) :=
  main_segs adm (pdats m ρ) () 𝒱₀ L lv (reshapes m ρ) (scalars m ρ) (regMag m ρ) (regCoh m ρ) rfl rfl c

abbrev AtReturn (c : Dev nD) : sProp 𝕄 :=
  iprop(StableHlo.held (c : Thread nD τ) (Pipeline.ucRefs τ sig) (Wend m ρ c) ∗ ∃ r, prngReg c r)

theorem atReturn_of (c : Dev nD) :
    Between (Wend m ρ) c ⊢ iprop(AtReturn m ρ c ∗ ∃ W, owes (c : Thread nD τ) (0 : CellTallies nD τ sig Unit) W) := by
  iintro ⟨Hbufs, Hreg, Howe⟩
  unfold AtReturn; iframe

set_option backward.isDefEq.respectTransparency.types false in

/-- Every fair execution of @main ends, each unscoped buffer holding the last stage's contents. -/
theorem run_main : θ_run defs (onTc (τ := τ) (main (F := F))) ⟨m, fun _ => 0, ρ⟩
    (fun r => ∀ c : Dev nD, ∀ b ∈ Pipeline.ucRefs τ sig, r.2.mem ((c : Thread nD τ).1, b) = Wend m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Between (W0 m ρ)) (Tₙ := AtReturn m ρ)
    (hch := ⟨fun _ => .rfl, fun _ => .rfl, fun _ => .rfl, fun _ => .rfl, fun c => atReturn_of m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howe, -, Hreg, -⟩, -⟩
      imodintro
      isplitl [Hbufs]; · iexact Hbufs
      isplitl [Hreg]; · iexists _; iexact Hreg
      iexists ∅; iexact Howe)
    (QY := fun c s => ∀ b ∈ Pipeline.ucRefs τ sig, s.mem (((c : Thread nD τ)).1, b) = Wend m ρ c b)
    (hfin := fun c s' => by
      iintro ⟨⟨Hbufs, -⟩, HSI⟩
      unfold StableHlo.held
      imodintro
      iapply (pointsTo_read_all (Pipeline.ucRefs τ sig) (fun b => (((c : Thread nD τ)).1, b)) (Wend m ρ c) s')
      isplitl [Hbufs] <;> iassumption)
    (hQ := fun s h => h)

/-- So every argument ends as launched: no item writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c)⟩) (run_main m ρ)

end Cert.KernelIdeal.Run

end
-- ==== Proof.MagValue.lean ====
import proofs.«116411_j74517682586316_1_alg».proof.Proof.MagFrame
import Idealize.ShloMosaic.Lib.ValueIdx
import Idealize.ShloMosaic.Lib.Pipeline.Value

set_option maxRecDepth 16384

noncomputable section

namespace Cert.KernelIdeal.Mag

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

abbrev tLast : Fin cfg0.N := ⟨31, by rw [show cfg0.N = 32 from N_0]; decide⟩

abbrev resMag (c : Dev nD) : Buf (Elt F) ((c : Thread nD τ).loc main_v0_0) := k0_pay2 (acc7 V c tLast.val tLast.isLt)
abbrev resPh (c : Dev nD) : Buf (Elt F) ((c : Thread nD τ).loc main_v0_1) := k0_pay3 (acc8 V c tLast.val tLast.isLt)

theorem flushed4_eq (c : Dev nD) (t : Fin cfg0.N) (hf : (cfg0.win 4).flush t = true) :
    (dat V c).flushed 4 t = ((cfg0.win 4).blk t).view.read (Elt F) (resMag V c) := by
  obtain rfl : t = tLast := Fin.ext (show t.val = 31 by have := (flush0_4 t).mp hf; have := lt_of_lt_of_eq t.isLt N_0; omega)
  have hz' : (fun a => win0_4.index tLast a * main_v0_0.ty.shape.size a) = fun _ => 0 := funext fun a => by fin_cases a <;> decide +kernel
  exact (Memref.read_access_unit_zero (Elt F) main_v0_0 hz' (fun a => by rw [congrFun hz' a]; simp) (resMag V c)).symm

/-- The one-word result array ends at the last running sum over the count: the last point's block is the whole array. -/
theorem final_v0_0 (c : Dev nD) : (dat V c).arrAt 4 cfg0.N = resMag V c :=
  (dat V c).arrAt_eq_of_cover 4 (resMag V c) (flushed4_eq V c) fun i =>
    ⟨tLast, (flush0_4 tLast).mpr rfl, by
      show i ∈ ((View.whole main_v0_0).slice (win0_4.rect tLast)).set
      rw [View.set_slice_whole, Rect.mem_set_unit]
      decide +kernel +revert⟩

theorem flushed5_eq (c : Dev nD) (t : Fin cfg0.N) (hf : (cfg0.win 5).flush t = true) :
    (dat V c).flushed 5 t = ((cfg0.win 5).blk t).view.read (Elt F) (resPh V c) := by
  obtain rfl : t = tLast := Fin.ext (show t.val = 31 by have := (flush0_5 t).mp hf; have := lt_of_lt_of_eq t.isLt N_0; omega)
  have hz' : (fun a => win0_5.index tLast a * main_v0_1.ty.shape.size a) = fun _ => 0 := funext fun a => by fin_cases a <;> decide +kernel
  exact (Memref.read_access_unit_zero (Elt F) main_v0_1 hz' (fun a => by rw [congrFun hz' a]; simp) (resPh V c)).symm

theorem final_v0_1 (c : Dev nD) : (dat V c).arrAt 5 cfg0.N = resPh V c :=
  (dat V c).arrAt_eq_of_cover 5 (resPh V c) (flushed5_eq V c) fun i =>
    ⟨tLast, (flush0_5 tLast).mpr rfl, by
      show i ∈ ((View.whole main_v0_1).slice (win0_5.rect tLast)).set
      rw [View.set_slice_whole, Rect.mem_set_unit]
      decide +kernel +revert⟩

theorem idx0_facts : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- A window's block at point `t` is batch `t` of its array. -/
theorem iblk0_apply (c : Dev nD) (t : Fin cfg0.N) (r : Fin 256) (f : Fin 2048) :
    (iblk V c 0 t : Vec F S1x256x2048 .f32) (ix3 (0 : Fin 1) r f) = V c main_arg0 (ix3 ⟨t.val, lt_of_lt_of_eq t.isLt N_0⟩ r f) := by
  unfold iblk
  rw [View.read_apply]
  show V c main_arg0 _ = V c main_arg0 _
  congr 1
  funext a
  apply Fin.ext
  obtain ⟨e0, e1, e2⟩ := idx0_facts t
  match a with
  | ⟨0, _⟩ => show win0_0.index t 0 * 1 + 1 * 0 = t.val; rw [e0]; omega
  | ⟨1, _⟩ => show win0_0.index t 1 * 256 + 1 * r.val = r.val; rw [e1]; omega
  | ⟨2, _⟩ => show win0_0.index t 2 * 2048 + 1 * f.val = f.val; rw [e2]; omega

theorem idx1_facts : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem iblk1_apply (c : Dev nD) (t : Fin cfg0.N) (r : Fin 256) (f : Fin 2048) :
    (iblk V c 1 t : Vec F S1x256x2048 .f32) (ix3 (0 : Fin 1) r f) = V c main_arg2 (ix3 ⟨t.val, lt_of_lt_of_eq t.isLt N_0⟩ r f) := by
  unfold iblk
  rw [View.read_apply]
  show V c main_arg2 _ = V c main_arg2 _
  congr 1
  funext a
  apply Fin.ext
  obtain ⟨e0, e1, e2⟩ := idx1_facts t
  match a with
  | ⟨0, _⟩ => show win0_1.index t 0 * 1 + 1 * 0 = t.val; rw [e0]; omega
  | ⟨1, _⟩ => show win0_1.index t 1 * 256 + 1 * r.val = r.val; rw [e1]; omega
  | ⟨2, _⟩ => show win0_1.index t 2 * 2048 + 1 * f.val = f.val; rw [e2]; omega

theorem idx2_facts : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem iblk2_apply (c : Dev nD) (t : Fin cfg0.N) (r : Fin 256) (f : Fin 2048) :
    (iblk V c 2 t : Vec F S1x256x2048 .f32) (ix3 (0 : Fin 1) r f) = V c main_arg1 (ix3 ⟨t.val, lt_of_lt_of_eq t.isLt N_0⟩ r f) := by
  unfold iblk
  rw [View.read_apply]
  show V c main_arg1 _ = V c main_arg1 _
  congr 1
  funext a
  apply Fin.ext
  obtain ⟨e0, e1, e2⟩ := idx2_facts t
  match a with
  | ⟨0, _⟩ => show win0_2.index t 0 * 1 + 1 * 0 = t.val; rw [e0]; omega
  | ⟨1, _⟩ => show win0_2.index t 1 * 256 + 1 * r.val = r.val; rw [e1]; omega
  | ⟨2, _⟩ => show win0_2.index t 2 * 2048 + 1 * f.val = f.val; rw [e2]; omega

theorem idx3_facts : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem iblk3_apply (c : Dev nD) (t : Fin cfg0.N) (r : Fin 256) (f : Fin 2048) :
    (iblk V c 3 t : Vec F S1x256x2048 .f32) (ix3 (0 : Fin 1) r f) = V c main_arg3 (ix3 ⟨t.val, lt_of_lt_of_eq t.isLt N_0⟩ r f) := by
  unfold iblk
  rw [View.read_apply]
  show V c main_arg3 _ = V c main_arg3 _
  congr 1
  funext a
  apply Fin.ext
  obtain ⟨e0, e1, e2⟩ := idx3_facts t
  match a with
  | ⟨0, _⟩ => show win0_3.index t 0 * 1 + 1 * 0 = t.val; rw [e0]; omega
  | ⟨1, _⟩ => show win0_3.index t 1 * 256 + 1 * r.val = r.val; rw [e1]; omega
  | ⟨2, _⟩ => show win0_3.index t 2 * 2048 + 1 * f.val = f.val; rw [e2]; omega

end Cert.KernelIdeal.Mag

end
-- ==== Proof.CohValue.lean ====
import proofs.«116411_j74517682586316_1_alg».proof.Proof.CohFrame
import Idealize.ShloMosaic.Lib.ValueIdx
import Idealize.ShloMosaic.Lib.Pipeline.Value

set_option maxRecDepth 16384

noncomputable section

namespace Cert.KernelIdeal.Coh

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

abbrev tLast : Fin cfg1.N := ⟨31, by rw [show cfg1.N = 32 from N_1]; decide⟩

abbrev result (c : Dev nD) : Buf (Elt F) ((c : Thread nD τ).loc main_v3) := k1_pay2 (acc V c tLast.val tLast.isLt)

theorem flushed_eq (c : Dev nD) (t : Fin cfg1.N) (hf : (cfg1.win 2).flush t = true) :
    (dat V c).flushed 2 t = ((cfg1.win 2).blk t).view.read (Elt F) (result V c) := by
  obtain rfl : t = tLast := Fin.ext (show t.val = 31 by have := (flush1_2 t).mp hf; have := lt_of_lt_of_eq t.isLt N_1; omega)
  have hz' : (fun a => win1_2.index tLast a * main_v3.ty.shape.size a) = fun _ => 0 := funext fun a => by fin_cases a <;> decide +kernel
  exact (Memref.read_access_unit_zero (Elt F) main_v3 hz' (fun a => by rw [congrFun hz' a]; simp) (result V c)).symm

/-- The one-word result array ends at the last running sum over the count: the last point's block is the whole array. -/
theorem final_v3 (c : Dev nD) : (dat V c).arrAt 2 cfg1.N = result V c :=
  (dat V c).arrAt_eq_of_cover 2 (result V c) (flushed_eq V c) fun i =>
    ⟨tLast, (flush1_2 tLast).mpr rfl, by
      show i ∈ ((View.whole main_v3).slice (win1_2.rect tLast)).set
      rw [View.set_slice_whole, Rect.mem_set_unit]
      decide +kernel +revert⟩

theorem idx0_facts : ∀ t : Fin cfg1.N, win1_0.index t 0 = t.val ∧ win1_0.index t 1 = 0 ∧ win1_0.index t 2 = 0 :=
  (by decide +kernel : ∀ t : Fin grid1.N, win1_0.index t 0 = t.val ∧ win1_0.index t 1 = 0 ∧ win1_0.index t 2 = 0)
theorem idx1_facts : ∀ t : Fin cfg1.N, win1_1.index t 0 = t.val ∧ win1_1.index t 1 = 0 ∧ win1_1.index t 2 = 0 :=
  (by decide +kernel : ∀ t : Fin grid1.N, win1_1.index t 0 = t.val ∧ win1_1.index t 1 = 0 ∧ win1_1.index t 2 = 0)

/-- A window's block at point `t` is batch `t` of its array. -/
theorem iblk0_apply (c : Dev nD) (t : Fin cfg1.N) (r : Fin 256) (f : Fin 2048) :
    (iblk V c 0 t : Vec F S1x256x2048 .f32) (ix3 (0 : Fin 1) r f) = V c main_arg1 (ix3 ⟨t.val, lt_of_lt_of_eq t.isLt N_1⟩ r f) := by
  unfold iblk
  rw [View.read_apply]
  show V c main_arg1 _ = V c main_arg1 _
  congr 1
  funext a
  apply Fin.ext
  obtain ⟨e0, e1, e2⟩ := idx0_facts t
  match a with
  | ⟨0, _⟩ => show win1_0.index t 0 * 1 + 1 * 0 = t.val; rw [e0]; omega
  | ⟨1, _⟩ => show win1_0.index t 1 * 256 + 1 * r.val = r.val; rw [e1]; omega
  | ⟨2, _⟩ => show win1_0.index t 2 * 2048 + 1 * f.val = f.val; rw [e2]; omega

theorem iblk1_apply (c : Dev nD) (t : Fin cfg1.N) (i j : Fin 256) :
    (iblk V c 1 t : Vec F S1x256x256 .f32) (ix3 (0 : Fin 1) i j) = V c main_arg4 (ix3 ⟨t.val, lt_of_lt_of_eq t.isLt N_1⟩ i j) := by
  unfold iblk
  rw [View.read_apply]
  show V c main_arg4 _ = V c main_arg4 _
  congr 1
  funext a
  apply Fin.ext
  obtain ⟨e0, e1, e2⟩ := idx1_facts t
  match a with
  | ⟨0, _⟩ => show win1_1.index t 0 * 1 + 1 * 0 = t.val; rw [e0]; omega
  | ⟨1, _⟩ => show win1_1.index t 1 * 256 + 1 * i.val = i.val; rw [e1]; omega
  | ⟨2, _⟩ => show win1_1.index t 2 * 256 + 1 * j.val = j.val; rw [e2]; omega

end Cert.KernelIdeal.Coh

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev Big : Type := (⟨3, ![32, 256, 2048]⟩ : Shape).Idx → EReal
abbrev Pci : Type := (⟨3, ![32, 256, 256]⟩ : Shape).Idx → EReal

abbrev Slab (n : ℕ) : Type := Fin 256 → Fin n → EReal

/-- Batch `b` of a rank-3 array, as rows by lanes. -/
def slab {n : ℕ} (x : (⟨3, ![32, 256, n]⟩ : Shape).Idx → EReal) (b : Fin 32) : Slab n := fun r f => x (ix3 b r f)

def sqd (x y : EReal) : EReal := (x - y) * (x - y)

def phTerm (x y : EReal) : EReal := Ideal.ofBits .f32 0x3F800000#32 - Ideal.cos (x - y)

/-- The sum over rows and lanes of a term of two slabs' entries. -/
def tileSum {n : ℕ} (g : EReal → EReal → EReal) (X Y : Slab n) : EReal := ∑ r : Fin 256, ∑ f : Fin n, g (X r f) (Y r f)

/-- The sum over the lanes of `u` of row `i`'s entry times `v` of row `j`'s. -/
def gram (u v : EReal → EReal) (P : Slab 2048) (i j : Fin 256) : EReal := ∑ k : Fin 2048, u (P i k) * v (P j k)

def invF : EReal := Ideal.ofBits .f32 0x3A000000#32
def eps : EReal := Ideal.ofBits .f32 0x322BCC77#32

/-- The lane mean of `exp (i (P i k - P j k))`: its real part, its imaginary part, and its modulus with `eps` under the root. -/
def re (P : Slab 2048) (i j : Fin 256) : EReal := (gram Ideal.cos Ideal.cos P i j + gram Ideal.sin Ideal.sin P i j) * invF
def im (P : Slab 2048) (i j : Fin 256) : EReal := (gram Ideal.sin Ideal.cos P i j - gram Ideal.cos Ideal.sin P i j) * invF

def pciHat (P : Slab 2048) (i j : Fin 256) : EReal := Ideal.sqrt ((re P i j * re P i j + im P i j * im P i j) + eps)

def cohTile (P : Slab 2048) (Q : Slab 256) : EReal := ∑ i : Fin 256, ∑ j : Fin 256, sqd (pciHat P i j) (Q i j)

/-- A sum of 32 per-batch sums divided by the literal count `n`. -/
def mean (tile : Fin 32 → EReal) (n : BitVec 32) : EReal := Ideal.div (∑ b : Fin 32, tile b) (Ideal.ofBits .f32 n)

def magLoss (x y : Big) : EReal := mean (fun b => tileSum sqd (slab x b) (slab y b)) 0x4B800000#32
def phLoss (x y : Big) : EReal := mean (fun b => tileSum phTerm (slab x b) (slab y b)) 0x4B800000#32
def cohLoss (p : Big) (q : Pci) : EReal := mean (fun b => cohTile (slab p b) (slab q b)) 0x4A000000#32
def total (a b c : EReal) : EReal :=
  (Ideal.ofBits .f32 0x3F800000#32 * a + Ideal.ofBits .f32 0x3F000000#32 * b) + Ideal.ofBits .f32 0x3E99999A#32 * c

end Cert.Spec

end
-- ==== Proof.LibLeadingUnit.lean ====
import Idealize.ShloMosaic.Lib.Pipeline.Value
import Idealize.ShloMosaic.Lib.ValueIdx

noncomputable section

namespace Cert.LeadingUnit

open Idealize.ShloMosaic Idealize.ShloMosaic.ValueIdx

variable {α : Type} {a b : Nat}

theorem rowMajor_lead (p : Fin a) (q : Fin b) :
    ((⟨3, ![1, a, b]⟩ : Shape).rowMajor (ix3 (0 : Fin 1) p q)).val = ((⟨2, ![a, b]⟩ : Shape).rowMajor (ix2 p q)).val := by
  rw [Shape.rowMajor_val_three, Shape.rowMajor_val_two]
  show (((0 : Fin 1) : ℕ) * (![1, a, b] : Fin 3 → ℕ) 1 + (p : ℕ)) * (![1, a, b] : Fin 3 → ℕ) 2 + (q : ℕ)
    = (p : ℕ) * (![a, b] : Fin 2 → ℕ) 1 + (q : ℕ)
  simp

theorem dropLead_apply (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  shapeCast_apply v h (ix2 p q) (ix3 (0 : Fin 1) p q) (rowMajor_lead p q)

end Cert.LeadingUnit

end
-- ==== Proof.LibColumn.lean ====
import Idealize.ShloMosaic.Lib.Pipeline.Value
import Idealize.ShloMosaic.Lib.ValueIdx

namespace Idealize.ShloMosaic.ValueLayout

open Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueLayout
-- ==== Proof.LibDotRowsRows.lean ====
import Idealize.ShloMosaic.Lib.ValueIdx
import Idealize.ShloMosaic.PureOps.Ideal.Laws

open scoped BigOperators

namespace Idealize.ShloMosaic.DotRowsRows

open Idealize.ShloMosaic Idealize.ShloMosaic.ValueIdx

variable {R K N : ℕ}

structure IsRowsRows (d : DotDims (⟨2, ![R, K]⟩ : Shape) (⟨2, ![N, K]⟩ : Shape) (⟨2, ![R, N]⟩ : Shape)) : Prop where
  lc : d.lhsContracting = [1]
  rc : d.rhsContracting = [1]
  ln : d.lhsNonContracting = [0]
  rn : d.rhsNonContracting = [0]
  lb : d.lhsBatch = []
  rb : d.rhsBatch = []

variable {d : DotDims (⟨2, ![R, K]⟩ : Shape) (⟨2, ![N, K]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

theorem lhs_row (h : IsRowsRows d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

theorem lhs_col (h : IsRowsRows d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

theorem rhs_row (h : IsRowsRows d) (j : (⟨2, ![R, N]⟩ : Shape).Idx) (k : d.contr.Idx) :
    (d.rhsIdx j k (0 : Fin 2)).val = (j (1 : Fin 2)).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem rhs_col (h : IsRowsRows d) (j : (⟨2, ![R, N]⟩ : Shape).Idx) (k : d.contr.Idx) :
    (d.rhsIdx j k (1 : Fin 2)).val = (k ⟨0, by rw [d.rank_contr, ← d.length_contracting, h.rc]; exact Nat.one_pos⟩).val :=
  d.rhsIdx_val_of_single h.rc j k

theorem contr_rank (h : IsRowsRows d) : d.contr.rank = 1 := by rw [d.rank_contr, h.lc]; rfl

theorem contr_size (h : IsRowsRows d) : d.contr.size ⟨0, by rw [contr_rank h]; exact Nat.one_pos⟩ = K := by
  rw [d.size_contr 0 (by rw [h.lc]; exact Nat.one_pos)]
  simp [h.lc]

theorem sum_contr (h : IsRowsRows d) (l : (⟨2, ![R, K]⟩ : Shape).Idx → EReal) (r : (⟨2, ![N, K]⟩ : Shape).Idx → EReal)
    (p : Fin R) (q : Fin N) :
    ∑ k : d.contr.Idx, l (d.lhsIdx (ix2 p q) k) * r (d.rhsIdx (ix2 p q) k) = ∑ k : Fin K, l (ix2 p k) * r (ix2 q k) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 q k := by
    funext a
    refine Fin.ext ?_
    match a with
    | ⟨0, _⟩ => exact rhs_row h _ _
    | ⟨1, _⟩ => exact (rhs_col h _ _).trans (contrEquiv1_symm_val d K (contr_rank h) (contr_size h) k)
  rw [hl, hr]

end Idealize.ShloMosaic.DotRowsRows
-- ==== Proof.PayValue.lean ====
import proofs.«116411_j74517682586316_1_alg».proof.Proof.Gen.KernelIdeal.Skeleton
import proofs.«116411_j74517682586316_1_alg».proof.Proof.Spec
import proofs.«116411_j74517682586316_1_alg».proof.Proof.LibLeadingUnit
import proofs.«116411_j74517682586316_1_alg».proof.Proof.LibColumn
import proofs.«116411_j74517682586316_1_alg».proof.Proof.LibDotRowsRows
import Idealize.ShloMosaic.Lib.ValueIdx
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx Cert.KernelIdeal Cert.KernelIdeal.Gen

theorem pay4_apply : k0_pay4 (F := Ideal) (ix2 (0 : Fin 1) (0 : Fin 1)) = 0 := by
  unfold k0_pay4
  rw [shapeCast_self]
  exact Ideal.ofBits_zero_f32

theorem pay5_apply : k0_pay5 (F := Ideal) (ix2 (0 : Fin 1) (0 : Fin 1)) = 0 := by
  unfold k0_pay5
  rw [shapeCast_self]
  exact Ideal.ofBits_zero_f32

theorem k1pay3_apply : k1_pay3 (F := Ideal) (ix2 (0 : Fin 1) (0 : Fin 1)) = 0 := by
  unfold k1_pay3
  rw [shapeCast_self]
  exact Ideal.ofBits_zero_f32

theorem pay1_apply (v : FVec Ideal S1x1 .f32) :
    k0_pay1 (F := Ideal) v (ix2 (0 : Fin 1) (0 : Fin 1)) = v (ix2 (0 : Fin 1) (0 : Fin 1)) := by
  unfold k0_pay1
  rw [shapeCast_self]

theorem k1pay1_apply (v : FVec Ideal S1x1 .f32) :
    k1_pay1 (F := Ideal) v (ix2 (0 : Fin 1) (0 : Fin 1)) = v (ix2 (0 : Fin 1) (0 : Fin 1)) := by
  unfold k1_pay1
  rw [shapeCast_self]

theorem pay2_apply (v : Vec Ideal S1x1 .f32) :
    k0_pay2 (F := Ideal) v (ix2 (0 : Fin 1) (0 : Fin 1))
      = Ideal.div (v (ix2 (0 : Fin 1) (0 : Fin 1))) (Ideal.ofBits .f32 0x4B800000#32) := rfl

theorem pay3_apply (v : Vec Ideal S1x1 .f32) :
    k0_pay3 (F := Ideal) v (ix2 (0 : Fin 1) (0 : Fin 1))
      = Ideal.div (v (ix2 (0 : Fin 1) (0 : Fin 1))) (Ideal.ofBits .f32 0x4B800000#32) := rfl

theorem k1pay2_apply (v : Vec Ideal S1x1 .f32) :
    k1_pay2 (F := Ideal) v (ix2 (0 : Fin 1) (0 : Fin 1))
      = Ideal.div (v (ix2 (0 : Fin 1) (0 : Fin 1))) (Ideal.ofBits .f32 0x4A000000#32) := rfl

section Sums
variable {n : ℕ}

theorem laneSum_apply (src : FVec Ideal (⟨2, ![256, n]⟩ : Shape) .f32)
    (h : (⟨2, ![256, n]⟩ : Shape).Reduces [1] S256) (hφ : FKind.Formats .f32)
    (hacc : (0x00000000#32 : BitVec 32) = FKind.add.neutral .f32 hφ) (r : Fin 256) :
    multiReduction (F := Ideal) .add [1] S256 src 0x00000000#32 h hφ hacc (ix1 r) = ∑ f : Fin n, src (ix2 r f) := by
  refine (Ideal.multiReduction_add_single src 0x00000000#32 h hφ hacc (ix1 r)).trans ?_
  show ∑ f : Fin n, src (h.lift (ix1 r) f) = _
  refine Finset.sum_congr rfl fun f _ => congrArg src ?_
  funext a
  refine Fin.ext ?_
  match a with
  | ⟨0, _⟩ => rfl
  | ⟨1, _⟩ => rfl

theorem colSum_apply (col : FVec Ideal S256x1 .f32) (h : S256x1.Reduces [0] S1) (hφ : FKind.Formats .f32)
    (hacc : (0x00000000#32 : BitVec 32) = FKind.add.neutral .f32 hφ) :
    multiReduction (F := Ideal) .add [0] S1 col 0x00000000#32 h hφ hacc (ix1 (0 : Fin 1))
      = ∑ r : Fin 256, col (ix2 r (0 : Fin 1)) := by
  refine (Ideal.multiReduction_add_single col 0x00000000#32 h hφ hacc (ix1 (0 : Fin 1))).trans ?_
  show ∑ r : Fin 256, col (h.lift (ix1 (0 : Fin 1)) r) = _
  refine Finset.sum_congr rfl fun r _ => congrArg col ?_
  funext a
  refine Fin.ext ?_
  match a with
  | ⟨0, _⟩ => rfl
  | ⟨1, _⟩ => rfl

/-- Lane sums stood up as a column and summed again: the double sum over rows and lanes. -/
theorem rowsLanes_apply (src : FVec Ideal (⟨2, ![256, n]⟩ : Shape) .f32)
    (h1 : (⟨2, ![256, n]⟩ : Shape).Reduces [1] S256) (c1 : S256.ShapeCasts S256x1)
    (h0 : S256x1.Reduces [0] S1) (c2 : S1.ShapeCasts S1x1) (hφ hφ' : FKind.Formats .f32)
    (hacc : (0x00000000#32 : BitVec 32) = FKind.add.neutral .f32 hφ)
    (hacc' : (0x00000000#32 : BitVec 32) = FKind.add.neutral .f32 hφ') :
    shapeCast S1x1 (multiReduction (F := Ideal) .add [0] S1
        (shapeCast S256x1 (multiReduction (F := Ideal) .add [1] S256 src 0x00000000#32 h1 hφ hacc) c1)
        0x00000000#32 h0 hφ' hacc') c2 (ix2 (0 : Fin 1) (0 : Fin 1))
      = ∑ r : Fin 256, ∑ f : Fin n, src (ix2 r f) := by
  refine (ValueLayout.shapeCast_a_a1_apply _ c2 (0 : Fin 1) (0 : Fin 1)).trans ?_
  refine (colSum_apply _ h0 hφ' hacc').trans ?_
  refine Finset.sum_congr rfl fun r _ => ?_
  refine (ValueLayout.shapeCast_a_a1_apply _ c1 r (0 : Fin 1)).trans ?_
  exact laneSum_apply src h1 hφ hacc r

end Sums

/-- The stored word is the running sum plus the batch's tile sum. -/
theorem pay6_apply (x0 x1 : Vec Ideal S1x256x2048 .f32) (a : Vec Ideal S1x1 .f32) :
    k0_pay6 (F := Ideal) x0 x1 a (ix2 (0 : Fin 1) (0 : Fin 1))
      = a (ix2 (0 : Fin 1) (0 : Fin 1))
        + Cert.Spec.tileSum Cert.Spec.sqd (fun r f => x0 (ix3 (0 : Fin 1) r f)) (fun r f => x1 (ix3 (0 : Fin 1) r f)) := by
  unfold k0_pay6
  rw [shapeCast_self]
  simp only [addf_apply]
  refine congrArg (a (ix2 (0 : Fin 1) (0 : Fin 1)) + ·) ?_
  refine (rowsLanes_apply _ _ _ _ _ _ _ _ _).trans ?_
  unfold Cert.Spec.tileSum Cert.Spec.sqd
  refine Finset.sum_congr rfl fun r _ => Finset.sum_congr rfl fun f _ => ?_
  simp only [mulf_apply, subf_apply, Cert.LeadingUnit.dropLead_apply]

section Entrywise
variable {s : Shape} {φ : FTy}

theorem cos_at (v : FVec Ideal s φ) (i : s.Idx) : cos v i = Ideal.cos (v i) := rfl
theorem sin_at (v : FVec Ideal s φ) (i : s.Idx) : sin v i = Ideal.sin (v i) := rfl
theorem sqrt_at (v : FVec Ideal s φ) (i : s.Idx) : sqrt v i = Ideal.sqrt (v i) := rfl

theorem ofBits_at (b : BitVec φ.bits) : Scalar.ofBits (F := Ideal) φ b = Ideal.ofBits φ b := rfl

end Entrywise

theorem pay7_apply (x2 x3 : Vec Ideal S1x256x2048 .f32) (a : Vec Ideal S1x1 .f32) :
    k0_pay7 (F := Ideal) x2 x3 a (ix2 (0 : Fin 1) (0 : Fin 1))
      = a (ix2 (0 : Fin 1) (0 : Fin 1))
        + Cert.Spec.tileSum Cert.Spec.phTerm (fun r f => x2 (ix3 (0 : Fin 1) r f)) (fun r f => x3 (ix3 (0 : Fin 1) r f)) := by
  unfold k0_pay7
  simp only [addf_apply]
  refine congrArg (a (ix2 (0 : Fin 1) (0 : Fin 1)) + ·) ?_
  refine (rowsLanes_apply _ _ _ _ _ _ _ _ _).trans ?_
  unfold Cert.Spec.tileSum Cert.Spec.phTerm
  refine Finset.sum_congr rfl fun r _ => Finset.sum_congr rfl fun f _ => ?_
  simp only [subf_apply, broadcast_apply, cos_at, ofBits_at, Cert.LeadingUnit.dropLead_apply]

theorem cosRow_apply (x0 : Vec Ideal S1x256x2048 .f32) (c : S1x256x2048.ShapeCasts S256x2048)
    (hb : FTy.bits .bf16 < FTy.bits .f32) (p : Fin 256) (k : Fin 2048) :
    truncf (F := Ideal) .bf16 (cos (shapeCast S256x2048 x0 c)) hb (ix2 p k) = Ideal.cos (x0 (ix3 (0 : Fin 1) p k)) := by
  rw [truncf_apply, cos_at, Cert.LeadingUnit.dropLead_apply]

theorem sinRow_apply (x0 : Vec Ideal S1x256x2048 .f32) (c : S1x256x2048.ShapeCasts S256x2048)
    (hb : FTy.bits .bf16 < FTy.bits .f32) (p : Fin 256) (k : Fin 2048) :
    truncf (F := Ideal) .bf16 (sin (shapeCast S256x2048 x0 c)) hb (ix2 p k) = Ideal.sin (x0 (ix3 (0 : Fin 1) p k)) := by
  rw [truncf_apply, sin_at, Cert.LeadingUnit.dropLead_apply]

/-- A product with a transpose into the zero matrix has the Gram sums as its entries. -/
theorem gramOf (u v : EReal → EReal) (P : Cert.Spec.Slab 2048) (l r : FVec Ideal S256x2048 .bf16)
    (hl : ∀ p k, l (ix2 p k) = u (P p k)) (hr : ∀ p k, r (ix2 p k) = v (P p k)) (i j : Fin 256) :
    matmul (F := Ideal) dot_S256x2048_S256x2048_S256x256_1_1_0_0_n_n none l r
        (constant (F := Ideal) S256x256 .f32 0x00000000#32) (ix2 i j)
      = Cert.Spec.gram u v P i j := by
  refine (Ideal.matmul_constant_zero_apply dot_S256x2048_S256x2048_S256x256_1_1_0_0_n_n none l r (ix2 i j)).trans ?_
  refine (DotRowsRows.sum_contr ⟨rfl, rfl, rfl, rfl, rfl, rfl⟩ l r i j).trans ?_
  unfold Cert.Spec.gram
  exact Finset.sum_congr rfl fun k _ => by rw [hl, hr]

theorem k1pay4_apply (x0 : Vec Ideal S1x256x2048 .f32) (x1 : Vec Ideal S1x256x256 .f32) (a : Vec Ideal S1x1 .f32) :
    k1_pay4 (F := Ideal) x0 x1 a (ix2 (0 : Fin 1) (0 : Fin 1))
      = a (ix2 (0 : Fin 1) (0 : Fin 1))
        + Cert.Spec.cohTile (fun r f => x0 (ix3 (0 : Fin 1) r f)) (fun i j => x1 (ix3 (0 : Fin 1) i j)) := by
  unfold k1_pay4
  simp only [addf_apply]
  refine congrArg (a (ix2 (0 : Fin 1) (0 : Fin 1)) + ·) ?_
  refine (rowsLanes_apply _ _ _ _ _ _ _ _ _).trans ?_
  unfold Cert.Spec.cohTile
  refine Finset.sum_congr rfl fun i _ => Finset.sum_congr rfl fun j _ => ?_
  have hc := cosRow_apply x0 shapeCasts_S1x256x2048_S256x2048 bitsLt_bf16_f32
  have hs := sinRow_apply x0 shapeCasts_S1x256x2048_S256x2048 bitsLt_bf16_f32
  simp only [mulf_apply, subf_apply, addf_apply, sqrt_at, broadcast_apply, ofBits_at, Cert.LeadingUnit.dropLead_apply,
    gramOf Ideal.cos Ideal.cos (fun r f => x0 (ix3 (0 : Fin 1) r f)) _ _ hc hc,
    gramOf Ideal.sin Ideal.sin (fun r f => x0 (ix3 (0 : Fin 1) r f)) _ _ hs hs,
    gramOf Ideal.sin Ideal.cos (fun r f => x0 (ix3 (0 : Fin 1) r f)) _ _ hs hc,
    gramOf Ideal.cos Ideal.sin (fun r f => x0 (ix3 (0 : Fin 1) r f)) _ _ hc hs]
  rfl

end Cert.KernelIdeal.PayValue

end
-- ==== Proof.IdealSums.lean ====
import proofs.«116411_j74517682586316_1_alg».proof.Proof.MagValue
import proofs.«116411_j74517682586316_1_alg».proof.Proof.CohValue
import proofs.«116411_j74517682586316_1_alg».proof.Proof.PayValue
import proofs.«116411_j74517682586316_1_alg».proof.Proof.Spec

set_option maxRecDepth 16384

noncomputable section

open scoped BigOperators

namespace Cert.KernelIdeal.IdealSums

open Idealize.ShloMosaic Idealize.ShloMosaic.TcCoe Idealize.ShloMosaic.ValueIdx
open Idealize.SL.Sem
open Cert.KernelIdeal Cert.KernelIdeal.Gen Cert.KernelIdeal.PayValue Cert.Spec
open Cert.Lib.RunningSum

variable (V : (c : Dev nD) → (b : Ref sig .tc) → Buf (Elt Ideal) ((c : Thread nD τ).loc b))

abbrev o : (⟨2, ![1, 1]⟩ : Shape).Idx := ix2 (0 : Fin 1) (0 : Fin 1)

section Mag
open Cert.KernelIdeal.Mag

abbrev X0 (c : Dev nD) : Big := V c main_arg0
abbrev X1 (c : Dev nD) : Big := V c main_arg1
abbrev X2 (c : Dev nD) : Big := V c main_arg2
abbrev X3 (c : Dev nD) : Big := V c main_arg3

theorem blk0 (c : Dev nD) (t : Fin cfg0.N) :
    (fun r f => (Mag.iblk V c 0 t : Vec Ideal S1x256x2048 .f32) (ix3 (0 : Fin 1) r f)) = slab (X0 V c) ⟨t.val, lt_of_lt_of_eq t.isLt N_0⟩ :=
  funext fun r => funext fun f => Mag.iblk0_apply V c t r f
theorem blk1 (c : Dev nD) (t : Fin cfg0.N) :
    (fun r f => (Mag.iblk V c 1 t : Vec Ideal S1x256x2048 .f32) (ix3 (0 : Fin 1) r f)) = slab (X2 V c) ⟨t.val, lt_of_lt_of_eq t.isLt N_0⟩ :=
  funext fun r => funext fun f => Mag.iblk1_apply V c t r f
theorem blk2 (c : Dev nD) (t : Fin cfg0.N) :
    (fun r f => (Mag.iblk V c 2 t : Vec Ideal S1x256x2048 .f32) (ix3 (0 : Fin 1) r f)) = slab (X1 V c) ⟨t.val, lt_of_lt_of_eq t.isLt N_0⟩ :=
  funext fun r => funext fun f => Mag.iblk2_apply V c t r f
theorem blk3 (c : Dev nD) (t : Fin cfg0.N) :
    (fun r f => (Mag.iblk V c 3 t : Vec Ideal S1x256x2048 .f32) (ix3 (0 : Fin 1) r f)) = slab (X3 V c) ⟨t.val, lt_of_lt_of_eq t.isLt N_0⟩ :=
  funext fun r => funext fun f => Mag.iblk3_apply V c t r f

def magT (c : Dev nD) (t : Fin cfg0.N) : EReal :=
  tileSum sqd (slab (X0 V c) ⟨t.val, lt_of_lt_of_eq t.isLt N_0⟩) (slab (X2 V c) ⟨t.val, lt_of_lt_of_eq t.isLt N_0⟩)
def phT (c : Dev nD) (t : Fin cfg0.N) : EReal :=
  tileSum phTerm (slab (X1 V c) ⟨t.val, lt_of_lt_of_eq t.isLt N_0⟩) (slab (X3 V c) ⟨t.val, lt_of_lt_of_eq t.isLt N_0⟩)

theorem acc7_sum (c : Dev nD) (n : ℕ) (h : n < cfg0.N) : Mag.acc7 V c n h o = ∑ i : Fin (n + 1), magT V c ⟨i.val, lt_of_lt_of_le i.isLt h⟩ := by
  refine accOf_sum _ _ (fun x : Vec Ideal S1x1 .f32 => x o) (magT V c) pay4_apply (fun t a => ?_) n h
  exact (pay6_apply _ _ a).trans (congrArg (a o + ·) (congrArg₂ (tileSum sqd) (blk0 V c t) (blk1 V c t)))

theorem acc8_sum (c : Dev nD) (n : ℕ) (h : n < cfg0.N) : Mag.acc8 V c n h o = ∑ i : Fin (n + 1), phT V c ⟨i.val, lt_of_lt_of_le i.isLt h⟩ := by
  refine accOf_sum _ _ (fun x : Vec Ideal S1x1 .f32 => x o) (phT V c) pay5_apply (fun t a => ?_) n h
  exact (pay1_apply _).trans ((pay7_apply _ _ a).trans (congrArg (a o + ·) (congrArg₂ (tileSum phTerm) (blk2 V c t) (blk3 V c t))))

/-- The running sum after the last point is the sum over all 32 batches, so the result is the specification's mean. -/
theorem resMag_eq (c : Dev nD) : (Mag.resMag V c : Vec Ideal S1x1 .f32) o = magLoss (X0 V c) (X2 V c) := by
  show k0_pay2 (F := Ideal) (Mag.acc7 V c Mag.tLast.val Mag.tLast.isLt) o = _
  rw [pay2_apply, acc7_sum]
  rfl

theorem resPh_eq (c : Dev nD) : (Mag.resPh V c : Vec Ideal S1x1 .f32) o = phLoss (X1 V c) (X3 V c) := by
  show k0_pay3 (F := Ideal) (Mag.acc8 V c Mag.tLast.val Mag.tLast.isLt) o = _
  rw [pay3_apply, acc8_sum]
  rfl

end Mag

section Coh
open Cert.KernelIdeal.Coh

abbrev P1 (c : Dev nD) : Big := V c main_arg1
abbrev Q4 (c : Dev nD) : Pci := V c main_arg4

theorem cblk0 (c : Dev nD) (t : Fin cfg1.N) :
    (fun r f => (Coh.iblk V c 0 t : Vec Ideal S1x256x2048 .f32) (ix3 (0 : Fin 1) r f)) = slab (P1 V c) ⟨t.val, lt_of_lt_of_eq t.isLt N_1⟩ :=
  funext fun r => funext fun f => Coh.iblk0_apply V c t r f
theorem cblk1 (c : Dev nD) (t : Fin cfg1.N) :
    (fun i j => (Coh.iblk V c 1 t : Vec Ideal S1x256x256 .f32) (ix3 (0 : Fin 1) i j)) = slab (Q4 V c) ⟨t.val, lt_of_lt_of_eq t.isLt N_1⟩ :=
  funext fun i => funext fun j => Coh.iblk1_apply V c t i j

def cohT (c : Dev nD) (t : Fin cfg1.N) : EReal :=
  cohTile (slab (P1 V c) ⟨t.val, lt_of_lt_of_eq t.isLt N_1⟩) (slab (Q4 V c) ⟨t.val, lt_of_lt_of_eq t.isLt N_1⟩)

theorem acc_sum (c : Dev nD) (n : ℕ) (h : n < cfg1.N) : Coh.acc V c n h o = ∑ i : Fin (n + 1), cohT V c ⟨i.val, lt_of_lt_of_le i.isLt h⟩ := by
  refine accOf_sum _ _ (fun x : Vec Ideal S1x1 .f32 => x o) (cohT V c) k1pay3_apply (fun t a => ?_) n h
  exact (k1pay1_apply _).trans ((k1pay4_apply _ _ a).trans (congrArg (a o + ·) (congrArg₂ cohTile (cblk0 V c t) (cblk1 V c t))))

theorem result_eq (c : Dev nD) : (Coh.result V c : Vec Ideal S1x1 .f32) o = cohLoss (P1 V c) (Q4 V c) := by
  show k1_pay2 (F := Ideal) (Coh.acc V c Coh.tLast.val Coh.tLast.isLt) o = _
  rw [k1pay2_apply, acc_sum]
  rfl

end Coh

end Cert.KernelIdeal.IdealSums

end
-- ==== Proof.LibScalarCast.lean ====
import Idealize.ShloMosaic.Lib.Pipeline.Value

namespace Idealize.ShloMosaic.ValueLayout

variable {α : Type}

theorem shapeCast_scalar_apply {s : Shape} (x : s.Idx → α) (h : s.ShapeCasts ⟨0, ![]⟩) (hn : s.numel = 1)
    (j : (⟨0, ![]⟩ : Shape).Idx) (k : s.Idx) : shapeCast ⟨0, ![]⟩ x h j = x k :=
  shapeCast_apply x h j k (by
    have h1 : (s.rowMajor k).val < s.numel := (s.rowMajor k).isLt
    have h2 : ((⟨0, ![]⟩ : Shape).rowMajor j).val < (⟨0, ![]⟩ : Shape).numel := ((⟨0, ![]⟩ : Shape).rowMajor j).isLt
    have h0 : (⟨0, ![]⟩ : Shape).numel = 1 := by decide
    omega)

end Idealize.ShloMosaic.ValueLayout
-- ==== Proof.Results.lean ====
import proofs.«116411_j74517682586316_1_alg».proof.Proof.Run
import proofs.«116411_j74517682586316_1_alg».proof.Proof.IdealSums
import proofs.«116411_j74517682586316_1_alg».proof.Proof.LibScalarCast
import Idealize.ShloMosaic.Lib.StableHlo.Run

set_option maxRecDepth 16384

noncomputable section

namespace Cert.KernelIdeal.Results

open Idealize.ShloMosaic Idealize.ShloMosaic.TcCoe Idealize.ShloMosaic.ValueIdx Idealize.ShloMosaic.ValueLayout
open Idealize.SL.Sem Idealize.ShloMosaic.StableHlo
open Cert.KernelIdeal Cert.KernelIdeal.Gen Cert.KernelIdeal.Run Cert.KernelIdeal.IdealSums Cert.Spec

variable (m : (ℓ : Loc nD τ sig) → Buf (Elt Ideal) ℓ) (ρ : Dev nD → PrngReg)

abbrev A0 (c : Dev nD) : Big := m ((c : Thread nD τ).loc main_arg0)
abbrev A1 (c : Dev nD) : Big := m ((c : Thread nD τ).loc main_arg1)
abbrev A2 (c : Dev nD) : Big := m ((c : Thread nD τ).loc main_arg2)
abbrev A3 (c : Dev nD) : Big := m ((c : Thread nD τ).loc main_arg3)
abbrev A4 (c : Dev nD) : Pci := m ((c : Thread nD τ).loc main_arg4)

theorem reshape_at (X : Vec Ideal S1x1 .f32) : shapeCast S_ X shapeCasts_S1x1_S_ ix0 = X o :=
  shapeCast_scalar_apply X shapeCasts_S1x1_S_ (by decide) ix0 o

theorem mid_v1 (c : Dev nD) : WMid m ρ c (Proc.devRef .tc main_v1) ix0 = magLoss (A0 m c) (A2 m c) := by
  have e : WMid m ρ c (Proc.devRef .tc main_v1) = shapeCast S_ (WMag m ρ c (Proc.devRef .tc main_v0_0)) shapeCasts_S1x1_S_ := by
    show StableHlo.after hostOps1 (WMag m ρ c) (Proc.devRef .tc main_v1) = _
    after_results; rfl
  rw [e, reshape_at, WMag_v0_0, Mag.final_v0_0]
  exact resMag_eq (Vin m ρ) c

theorem mid_v2 (c : Dev nD) : WMid m ρ c (Proc.devRef .tc main_v2) ix0 = phLoss (A1 m c) (A3 m c) := by
  have e : WMid m ρ c (Proc.devRef .tc main_v2) = shapeCast S_ (WMag m ρ c (Proc.devRef .tc main_v0_1)) shapeCasts_S1x1_S_ := by
    show StableHlo.after hostOps1 (WMag m ρ c) (Proc.devRef .tc main_v2) = _
    after_results; rfl
  rw [e, reshape_at, WMag_v0_1, Mag.final_v0_1]
  exact resPh_eq (Vin m ρ) c

theorem coh_v1 (c : Dev nD) : WCoh m ρ c (Proc.devRef .tc main_v1) ix0 = magLoss (A0 m c) (A2 m c) := by
  rw [WCoh_of_ne m ρ c main_v1 (by decide)]; exact mid_v1 m ρ c
theorem coh_v2 (c : Dev nD) : WCoh m ρ c (Proc.devRef .tc main_v2) ix0 = phLoss (A1 m c) (A3 m c) := by
  rw [WCoh_of_ne m ρ c main_v2 (by decide)]; exact mid_v2 m ρ c
theorem coh_v3 (c : Dev nD) : WCoh m ρ c (Proc.devRef .tc main_v3) o = cohLoss (A1 m c) (A4 m c) := by
  rw [WCoh_v3, Coh.final_v3]
  refine (result_eq (Vmid m ρ) c).trans ?_
  show cohLoss (Vmid m ρ c main_arg1) (Vmid m ρ c main_arg4) = _
  rw [Vmid_arg1, Vmid_arg4]

theorem end_v1 (c : Dev nD) : Wend m ρ c (Proc.devRef .tc main_v1) ix0 = magLoss (A0 m c) (A2 m c) := by
  rw [Wend_of m ρ c main_v1 (by decide)]; exact coh_v1 m ρ c
theorem end_v2 (c : Dev nD) : Wend m ρ c (Proc.devRef .tc main_v2) ix0 = phLoss (A1 m c) (A3 m c) := by
  rw [Wend_of m ρ c main_v2 (by decide)]; exact coh_v2 m ρ c

theorem end_v4 (c : Dev nD) : Wend m ρ c (Proc.devRef .tc main_v4) ix0 = cohLoss (A1 m c) (A4 m c) := by
  have e : Wend m ρ c (Proc.devRef .tc main_v4) = shapeCast S_ (WCoh m ρ c (Proc.devRef .tc main_v3)) shapeCasts_S1x1_S_ := by
    show StableHlo.after hostOps2 (WCoh m ρ c) (Proc.devRef .tc main_v4) = _
    after_results; rfl
  rw [e, reshape_at]; exact coh_v3 m ρ c

/-- The total is the weighted sum of the three losses. -/
theorem end_v9 (c : Dev nD) : Wend m ρ c (Proc.devRef .tc main_v9) ix0
    = total (magLoss (A0 m c) (A2 m c)) (phLoss (A1 m c) (A3 m c)) (cohLoss (A1 m c) (A4 m c)) := by
  have e : Wend m ρ c (Proc.devRef .tc main_v9)
      = addf (addf (mulf (constant (F := Ideal) S_ .f32 0x3F800000#32) (WCoh m ρ c (Proc.devRef .tc main_v1)))
          (mulf (constant (F := Ideal) S_ .f32 0x3F000000#32) (WCoh m ρ c (Proc.devRef .tc main_v2))))
          (mulf (constant (F := Ideal) S_ .f32 0x3E99999A#32) (shapeCast S_ (WCoh m ρ c (Proc.devRef .tc main_v3)) shapeCasts_S1x1_S_)) := by
    show StableHlo.after hostOps2 (WCoh m ρ c) (Proc.devRef .tc main_v9) = _
    after_results; rfl
  rw [e]
  show (Ideal.ofBits .f32 0x3F800000#32 * WCoh m ρ c (Proc.devRef .tc main_v1) ix0
      + Ideal.ofBits .f32 0x3F000000#32 * WCoh m ρ c (Proc.devRef .tc main_v2) ix0)
      + Ideal.ofBits .f32 0x3E99999A#32 * shapeCast S_ (WCoh m ρ c (Proc.devRef .tc main_v3)) shapeCasts_S1x1_S_ ix0 = _
  rw [coh_v1, coh_v2, reshape_at, coh_v3]
  rfl

theorem scalar_ext {X Y : (⟨0, ![]⟩ : Shape).Idx → EReal} (h : X ix0 = Y ix0) : X = Y :=
  funext fun j => by rw [eq_ix0 j]; exact h

end Cert.KernelIdeal.Results

end
-- ==== Proof.LibSumIdx3.lean ====
import Idealize.ShloMosaic.Lib.ValueIdx

open scoped BigOperators

namespace Cert.Lib.SumIdx3

open Idealize.ShloMosaic Idealize.ShloMosaic.ValueIdx

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.SumIdx3
-- ==== Proof.RefValue.lean ====
import proofs.«116411_j74517682586316_1_alg».proof.Proof.Gen.ReferenceIdeal.Run
import proofs.«116411_j74517682586316_1_alg».proof.Proof.Gen.ReferenceIdeal.Read
import proofs.«116411_j74517682586316_1_alg».proof.Proof.Spec
import proofs.«116411_j74517682586316_1_alg».proof.Proof.LibSumIdx3

noncomputable section

open scoped BigOperators

namespace Cert.ReferenceIdeal.RefValue

open Cert.ReferenceIdeal Idealize.ShloMosaic Idealize.ShloMosaic.ValueIdx

abbrev ArgBig : Type := (⟨S32x256x2048, .f32⟩ : BufTy).Contents (Elt Ideal)
abbrev ArgPci : Type := (⟨S32x256x256, .f32⟩ : BufTy).Contents (Elt Ideal)

theorem mag_entry (x0 x2 : ArgBig) (b : Fin 32) (r : Fin 256) (f : Fin 2048) :
    Read.val_main_v1 (F := Ideal) x0 x2 (ix3 b r f) = Cert.Spec.sqd (x0 (ix3 b r f)) (x2 (ix3 b r f)) := by
  rw [Read.val_main_v1_apply, Read.val_main_v0_apply, Ideal.mulf_def, Ideal.subf_def]
  rfl

/-- The sum over all indices, regrouped by batch, row and lane, is the specification's mean. -/
theorem ref_mag (x0 x2 : ArgBig) : Read.val_main_v3 (F := Ideal) x0 x2 ix0 = Cert.Spec.magLoss x0 x2 := by
  rw [Read.val_main_v3_apply, Read.val_main_v2_apply, Read.val_main_cst_apply, Read.val_main_cst_0_apply,
    Ideal.hostDivf_def, Ideal.ofBits_def, Ideal.ofBits_def, Ideal.ofBits_zero_f32, zero_add, Cert.Lib.SumIdx3.sum_idx3]
  unfold Cert.Spec.magLoss Cert.Spec.mean
  refine congrArg₂ Ideal.div ?_ rfl
  refine Finset.sum_congr rfl fun b _ => ?_
  unfold Cert.Spec.tileSum Cert.Spec.slab
  exact Finset.sum_congr rfl fun r _ => Finset.sum_congr rfl fun f _ => mag_entry x0 x2 b r f

theorem ph_entry (x1 x3 : ArgBig) (b : Fin 32) (r : Fin 256) (f : Fin 2048) :
    Read.val_main_v7 (F := Ideal) x1 x3 (ix3 b r f) = Cert.Spec.phTerm (x1 (ix3 b r f)) (x3 (ix3 b r f)) := by
  rw [Read.val_main_v7_apply, Read.val_main_v6_apply, Read.val_main_cst_1_apply, Read.val_main_v5_apply,
    Read.val_main_v4_apply, Ideal.subf_def, Ideal.subf_def, Ideal.hostUnary_cos_def, Ideal.ofBits_def]
  rfl

theorem ref_ph (x1 x3 : ArgBig) : Read.val_main_v9 (F := Ideal) x1 x3 ix0 = Cert.Spec.phLoss x1 x3 := by
  rw [Read.val_main_v9_apply, Read.val_main_v8_apply, Read.val_main_cst_2_apply, Read.val_main_cst_3_apply,
    Ideal.hostDivf_def, Ideal.ofBits_def, Ideal.ofBits_def, Ideal.ofBits_zero_f32, zero_add, Cert.Lib.SumIdx3.sum_idx3]
  unfold Cert.Spec.phLoss Cert.Spec.mean
  refine congrArg₂ Ideal.div ?_ rfl
  refine Finset.sum_congr rfl fun b _ => ?_
  unfold Cert.Spec.tileSum Cert.Spec.slab
  exact Finset.sum_congr rfl fun r _ => Finset.sum_congr rfl fun f _ => ph_entry x1 x3 b r f

theorem lidx_eq (b : Fin 32) (p q : Fin 256) (k : Fin 2048) :
    Read.lidx_main_v12 (ix3 b p q) k = ix3 b p k := by
  funext a; match a with | ⟨0, _⟩ => rfl | ⟨1, _⟩ => rfl | ⟨2, _⟩ => rfl

theorem ridx_eq (b : Fin 32) (p q : Fin 256) (k : Fin 2048) :
    Read.ridx_main_v12 (ix3 b p q) k = ix3 b q k := by
  funext a; match a with | ⟨0, _⟩ => rfl | ⟨1, _⟩ => rfl | ⟨2, _⟩ => rfl

theorem gram_cc (x1 : ArgBig) (b : Fin 32) (p q : Fin 256) :
    Read.val_main_v12 (F := Ideal) x1 (ix3 b p q)
      = Cert.Spec.gram Ideal.cos Ideal.cos (Cert.Spec.slab x1 b) p q := by
  rw [Read.val_main_v12_apply]
  unfold Cert.Spec.gram Cert.Spec.slab
  refine Finset.sum_congr rfl fun k _ => ?_
  rw [lidx_eq, ridx_eq, Read.val_main_v10_apply, Read.val_main_v10_apply, Ideal.hostUnary_cos_def,
    Ideal.hostUnary_cos_def]

theorem gram_ss (x1 : ArgBig) (b : Fin 32) (p q : Fin 256) :
    Read.val_main_v13 (F := Ideal) x1 (ix3 b p q)
      = Cert.Spec.gram Ideal.sin Ideal.sin (Cert.Spec.slab x1 b) p q := by
  rw [Read.val_main_v13_apply]
  unfold Cert.Spec.gram Cert.Spec.slab
  refine Finset.sum_congr rfl fun k _ => ?_
  rw [show Read.lidx_main_v13 (ix3 b p q) k = ix3 b p k from lidx_eq b p q k,
    show Read.ridx_main_v13 (ix3 b p q) k = ix3 b q k from ridx_eq b p q k,
    Read.val_main_v11_apply, Read.val_main_v11_apply, Ideal.hostUnary_sin_def, Ideal.hostUnary_sin_def]

theorem gram_sc (x1 : ArgBig) (b : Fin 32) (p q : Fin 256) :
    Read.val_main_v17 (F := Ideal) x1 (ix3 b p q)
      = Cert.Spec.gram Ideal.sin Ideal.cos (Cert.Spec.slab x1 b) p q := by
  rw [Read.val_main_v17_apply]
  unfold Cert.Spec.gram Cert.Spec.slab
  refine Finset.sum_congr rfl fun k _ => ?_
  rw [show Read.lidx_main_v17 (ix3 b p q) k = ix3 b p k from lidx_eq b p q k,
    show Read.ridx_main_v17 (ix3 b p q) k = ix3 b q k from ridx_eq b p q k,
    Read.val_main_v11_apply, Read.val_main_v10_apply, Ideal.hostUnary_sin_def, Ideal.hostUnary_cos_def]

theorem gram_cs (x1 : ArgBig) (b : Fin 32) (p q : Fin 256) :
    Read.val_main_v18 (F := Ideal) x1 (ix3 b p q)
      = Cert.Spec.gram Ideal.cos Ideal.sin (Cert.Spec.slab x1 b) p q := by
  rw [Read.val_main_v18_apply]
  unfold Cert.Spec.gram Cert.Spec.slab
  refine Finset.sum_congr rfl fun k _ => ?_
  rw [show Read.lidx_main_v18 (ix3 b p q) k = ix3 b p k from lidx_eq b p q k,
    show Read.ridx_main_v18 (ix3 b p q) k = ix3 b q k from ridx_eq b p q k,
    Read.val_main_v10_apply, Read.val_main_v11_apply, Ideal.hostUnary_cos_def, Ideal.hostUnary_sin_def]

theorem re_entry (x1 : ArgBig) (b : Fin 32) (p q : Fin 256) :
    Read.val_main_v16 (F := Ideal) x1 (ix3 b p q) = Cert.Spec.re (Cert.Spec.slab x1 b) p q := by
  rw [Read.val_main_v16_apply, Read.val_main_v15_apply, Read.val_main_cst_4_apply, Read.val_main_v14_apply,
    gram_cc, gram_ss, Ideal.mulf_def, Ideal.addf_def, Ideal.ofBits_def]
  rfl

theorem im_entry (x1 : ArgBig) (b : Fin 32) (p q : Fin 256) :
    Read.val_main_v21 (F := Ideal) x1 (ix3 b p q) = Cert.Spec.im (Cert.Spec.slab x1 b) p q := by
  rw [Read.val_main_v21_apply, Read.val_main_v20_apply, Read.val_main_cst_5_apply, Read.val_main_v19_apply,
    gram_sc, gram_cs, Ideal.mulf_def, Ideal.subf_def, Ideal.ofBits_def]
  rfl

theorem pci_entry (x1 : ArgBig) (b : Fin 32) (p q : Fin 256) :
    Read.val_main_v27 (F := Ideal) x1 (ix3 b p q) = Cert.Spec.pciHat (Cert.Spec.slab x1 b) p q := by
  rw [Read.val_main_v27_apply, Read.val_main_v26_apply, Read.val_main_v25_apply, Read.val_main_cst_6_apply,
    Read.val_main_v24_apply, Read.val_main_v22_apply, Read.val_main_v23_apply, re_entry, im_entry,
    Ideal.hostUnary_sqrt_def, Ideal.addf_def, Ideal.addf_def, Ideal.mulf_def, Ideal.mulf_def, Ideal.ofBits_def]
  rfl

theorem coh_entry (x1 : ArgBig) (x4 : ArgPci) (b : Fin 32) (p q : Fin 256) :
    Read.val_main_v29 (F := Ideal) x1 x4 (ix3 b p q)
      = Cert.Spec.sqd (Cert.Spec.pciHat (Cert.Spec.slab x1 b) p q) (Cert.Spec.slab x4 b p q) := by
  rw [Read.val_main_v29_apply, Read.val_main_v28_apply, pci_entry, Ideal.mulf_def, Ideal.subf_def]
  rfl

theorem ref_coh (x1 : ArgBig) (x4 : ArgPci) : Read.val_main_v31 (F := Ideal) x1 x4 ix0 = Cert.Spec.cohLoss x1 x4 := by
  rw [Read.val_main_v31_apply, Read.val_main_v30_apply, Read.val_main_cst_7_apply, Read.val_main_cst_8_apply,
    Ideal.hostDivf_def, Ideal.ofBits_def, Ideal.ofBits_def, Ideal.ofBits_zero_f32, zero_add, Cert.Lib.SumIdx3.sum_idx3]
  unfold Cert.Spec.cohLoss Cert.Spec.mean
  refine congrArg₂ Ideal.div ?_ rfl
  refine Finset.sum_congr rfl fun b _ => ?_
  unfold Cert.Spec.cohTile
  exact Finset.sum_congr rfl fun p _ => Finset.sum_congr rfl fun q _ => coh_entry x1 x4 b p q

theorem ref_total (x0 x1 x2 x3 : ArgBig) (x4 : ArgPci) :
    Read.val_main_v36 (F := Ideal) x0 x1 x2 x3 x4 ix0
      = Cert.Spec.total (Cert.Spec.magLoss x0 x2) (Cert.Spec.phLoss x1 x3) (Cert.Spec.cohLoss x1 x4) := by
  rw [Read.val_main_v36_apply, Read.val_main_v35_apply, Read.val_main_v34_apply, Read.val_main_v33_apply,
    Read.val_main_v32_apply, Read.val_main_cst_9_apply, Read.val_main_cst_10_apply, Read.val_main_cst_11_apply,
    ref_mag, ref_ph, ref_coh, Ideal.addf_def, Ideal.addf_def, Ideal.mulf_def, Ideal.mulf_def, Ideal.mulf_def,
    Ideal.ofBits_def, Ideal.ofBits_def, Ideal.ofBits_def]
  rfl

end Cert.ReferenceIdeal.RefValue

end
-- ==== Proof.lean ====
import proofs.«116411_j74517682586316_1_alg».proof.Defs
import proofs.«116411_j74517682586316_1_alg».proof.Proof.Gen.Kernel
import proofs.«116411_j74517682586316_1_alg».proof.Proof.Gen.KernelIdeal
import proofs.«116411_j74517682586316_1_alg».proof.Proof.Gen.ReferenceIdeal
import proofs.«116411_j74517682586316_1_alg».proof.Proof.Gen.Pre_finite_inputs
import proofs.«116411_j74517682586316_1_alg».proof.Proof.Gen.ReferenceIdeal.Run
import proofs.«116411_j74517682586316_1_alg».proof.Proof.Gen.ReferenceIdeal.Read
import proofs.«116411_j74517682586316_1_alg».proof.Proof.WordRun
import proofs.«116411_j74517682586316_1_alg».proof.Proof.Run
import proofs.«116411_j74517682586316_1_alg».proof.Proof.Results
import proofs.«116411_j74517682586316_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

open Cert.KernelIdeal.Results Cert.ReferenceIdeal.RefValue in
/-- Both programs end at the specification's four values of the argument arrays. -/
theorem algebraic : Cert.algebraic_KernelIdeal_ReferenceIdeal := by
  intro m ρ m' ρ' _ hagree
  refine ⟨fun c _ => Cert.Spec.total (Cert.Spec.magLoss (A0 m c) (A2 m c)) (Cert.Spec.phLoss (A1 m c) (A3 m c)) (Cert.Spec.cohLoss (A1 m c) (A4 m c)),
    fun c _ => Cert.Spec.magLoss (A0 m c) (A2 m c), fun c _ => Cert.Spec.phLoss (A1 m c) (A3 m c), fun c _ => Cert.Spec.cohLoss (A1 m c) (A4 m c), ?_, ?_⟩
  · refine (θ_run Cert.KernelIdeal.defs _ _).mono (fun r h c => ?_) (Cert.KernelIdeal.Run.run_main m ρ)
    have hr := h c
    exact ⟨(hr _ (Cert.KernelIdeal.Run.mem_uc Cert.KernelIdeal.main_v9 (by decide))).trans (scalar_ext (end_v9 m ρ c)),
      (hr _ (Cert.KernelIdeal.Run.mem_uc Cert.KernelIdeal.main_v1 (by decide))).trans (scalar_ext (end_v1 m ρ c)),
      (hr _ (Cert.KernelIdeal.Run.mem_uc Cert.KernelIdeal.main_v2 (by decide))).trans (scalar_ext (end_v2 m ρ c)),
      (hr _ (Cert.KernelIdeal.Run.mem_uc Cert.KernelIdeal.main_v4 (by decide))).trans (scalar_ext (end_v4 m ρ c)),
      (hr _ (Cert.KernelIdeal.Run.mem_uc Cert.KernelIdeal.main_arg0 (by decide))).trans (Cert.KernelIdeal.Run.Wend_main_arg0 m ρ c),
      (hr _ (Cert.KernelIdeal.Run.mem_uc Cert.KernelIdeal.main_arg1 (by decide))).trans (Cert.KernelIdeal.Run.Wend_main_arg1 m ρ c),
      (hr _ (Cert.KernelIdeal.Run.mem_uc Cert.KernelIdeal.main_arg2 (by decide))).trans (Cert.KernelIdeal.Run.Wend_main_arg2 m ρ c),
      (hr _ (Cert.KernelIdeal.Run.mem_uc Cert.KernelIdeal.main_arg3 (by decide))).trans (Cert.KernelIdeal.Run.Wend_main_arg3 m ρ c),
      (hr _ (Cert.KernelIdeal.Run.mem_uc Cert.KernelIdeal.main_arg4 (by decide))).trans (Cert.KernelIdeal.Run.Wend_main_arg4 m ρ c)⟩
  · refine (θ_run Cert.ReferenceIdeal.defs _ _).mono (fun r h c => ?_) (Cert.ReferenceIdeal.Value.run (F := Ideal) m' ρ')
    obtain ⟨h36, h3, h9, h31, ha⟩ := h c
    obtain ⟨e0, e1, e2, e3, e4⟩ := hagree c
    refine ⟨h36.trans ?_, h3.trans ?_, h9.trans ?_, h31.trans ?_, ha⟩
    · rw [Cert.ReferenceIdeal.Read.val_main_v36_eq, e0, e1, e2, e3, e4]
      exact scalar_ext (ref_total _ _ _ _ _)
    · rw [Cert.ReferenceIdeal.Read.val_main_v3_eq, e0, e2]
      exact scalar_ext (ref_mag _ _)
    · rw [Cert.ReferenceIdeal.Read.val_main_v9_eq, e1, e3]
      exact scalar_ext (ref_ph _ _)
    · rw [Cert.ReferenceIdeal.Read.val_main_v31_eq, e1, e4]
      exact scalar_ext (ref_coh _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
